-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v245)) (v1 : (c : Dev Cert.KernelIdeal.nD) → Buf (Elt Ideal) ((c.tc : Thread Cert.KernelIdeal.nD Cert.KernelIdeal.τ).loc Cert.KernelIdeal.main_v246)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v245) = v0 c
          ∧ r.2.mem ((c.tc : Thread Cert.KernelIdeal.nD Cert.KernelIdeal.τ).loc Cert.KernelIdeal.main_v246) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_v279) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2x96x96x96 : Shape := ⟨5, ![8, 2, 96, 96, 96]⟩
abbrev S8x2x48x48x48 : Shape := ⟨5, ![8, 2, 48, 48, 48]⟩
abbrev S8x2x24x24x24 : Shape := ⟨5, ![8, 2, 24, 24, 24]⟩
abbrev S8x128x4 : Shape := ⟨3, ![8, 128, 4]⟩
abbrev S_ : Shape := ⟨0, ![]⟩

class Facts : Prop where
  bcast_S_S8x2x96x96x96 : S_.BroadcastsInDim S8x2x96x96x96 (![] : Fin 0 → Fin S8x2x96x96x96.rank)
  reducesTo_S8x2x96x96x96_S_d0_1_2_3_4 : S8x2x96x96x96.ReducesTo [0, 1, 2, 3, 4] S_
  h_S_ : 0 < S_.numel
  bcast_S_S8x2x48x48x48 : S_.BroadcastsInDim S8x2x48x48x48 (![] : Fin 0 → Fin S8x2x48x48x48.rank)
  reducesTo_S8x2x48x48x48_S_d0_1_2_3_4 : S8x2x48x48x48.ReducesTo [0, 1, 2, 3, 4] S_
  bcast_S_S8x2x24x24x24 : S_.BroadcastsInDim S8x2x24x24x24 (![] : Fin 0 → Fin S8x2x24x24x24.rank)
  reducesTo_S8x2x24x24x24_S_d0_1_2_3_4 : S8x2x24x24x24.ReducesTo [0, 1, 2, 3, 4] S_

variable [Facts]

def fn_part1 {F : FTy → Type} [FloatOps F] (main_arg4 : FVec F S8x2x48x48x48 .f32) (main_arg5 : FVec F S8x2x24x24x24 .f32) (main_v13 : IVec S_ 1) (main_v16 : IVec S8x2x96x96x96 1) : IVec S_ 1 :=
  let main_c_5 : IVec S_ 1 := constantI S_ 1 1#1
  let main_v17 : IVec S_ 1 := (fun x v => Host.reduce IntOp.andi x v reducesTo_S8x2x96x96x96_S_d0_1_2_3_4 h_S_) main_v16 main_c_5
  let main_v18 : IVec S_ 1 := andi main_v13 main_v17
  let main_v19 : FVec F S8x2x48x48x48 .f32 := Host.absf main_arg4
  let main_cst_6 : FVec F S_ .f32 := constant S_ .f32 0x7F800000#32
  let main_v20 : FVec F S8x2x48x48x48 .f32 := broadcastInDim S8x2x48x48x48 ![] bcast_S_S8x2x48x48x48 main_cst_6
  let main_v21 : IVec S8x2x48x48x48 1 := cmpf .olt main_v19 main_v20
  let main_c_7 : IVec S_ 1 := constantI S_ 1 1#1
  let main_v22 : IVec S_ 1 := (fun x v => Host.reduce IntOp.andi x v reducesTo_S8x2x48x48x48_S_d0_1_2_3_4 h_S_) main_v21 main_c_7
  let main_v23 : IVec S_ 1 := andi main_v18 main_v22
  let main_v24 : FVec F S8x2x24x24x24 .f32 := Host.absf main_arg5
  let main_cst_8 : FVec F S_ .f32 := constant S_ .f32 0x7F800000#32
  let main_v25 : FVec F S8x2x24x24x24 .f32 := broadcastInDim S8x2x24x24x24 ![] bcast_S_S8x2x24x24x24 main_cst_8
  let main_v26 : IVec S8x2x24x24x24 1 := cmpf .olt main_v24 main_v25
  let main_c_9 : IVec S_ 1 := constantI S_ 1 1#1
  let main_v27 : IVec S_ 1 := (fun x v => Host.reduce IntOp.andi x v reducesTo_S8x2x24x24x24_S_d0_1_2_3_4 h_S_) main_v26 main_c_9
  let main_v28 : IVec S_ 1 := andi main_v23 main_v27
  main_v28

def fn {F : FTy → Type} [FloatOps F] (main_arg0 : FVec F S8x2x96x96x96 .f32) (main_arg1 : FVec F S8x2x48x48x48 .f32) (main_arg2 : FVec F S8x2x24x24x24 .f32) (main_arg3 : FVec F S8x2x96x96x96 .f32) (main_arg4 : FVec F S8x2x48x48x48 .f32) (main_arg5 : FVec F S8x2x24x24x24 .f32) (main_arg6 : IVec S8x128x4 32) (main_arg7 : IVec S8x128x4 32) (main_arg8 : IVec S8x128x4 32) : IVec S_ 1 :=
  let main_v0 : FVec F S8x2x96x96x96 .f32 := Host.absf main_arg0
  let main_cst : FVec F S_ .f32 := constant S_ .f32 0x7F800000#32
  let main_v1 : FVec F S8x2x96x96x96 .f32 := broadcastInDim S8x2x96x96x96 ![] bcast_S_S8x2x96x96x96 main_cst
  let main_v2 : IVec S8x2x96x96x96 1 := cmpf .olt main_v0 main_v1
  let main_c : IVec S_ 1 := constantI S_ 1 1#1
  let main_v3 : IVec S_ 1 := (fun x v => Host.reduce IntOp.andi x v reducesTo_S8x2x96x96x96_S_d0_1_2_3_4 h_S_) main_v2 main_c
  let main_v4 : FVec F S8x2x48x48x48 .f32 := Host.absf main_arg1
  let main_cst_0 : FVec F S_ .f32 := constant S_ .f32 0x7F800000#32
  let main_v5 : FVec F S8x2x48x48x48 .f32 := broadcastInDim S8x2x48x48x48 ![] bcast_S_S8x2x48x48x48 main_cst_0
  let main_v6 : IVec S8x2x48x48x48 1 := cmpf .olt main_v4 main_v5
  let main_c_1 : IVec S_ 1 := constantI S_ 1 1#1
  let main_v7 : IVec S_ 1 := (fun x v => Host.reduce IntOp.andi x v reducesTo_S8x2x48x48x48_S_d0_1_2_3_4 h_S_) main_v6 main_c_1
  let main_v8 : IVec S_ 1 := andi main_v3 main_v7
  let main_v9 : FVec F S8x2x24x24x24 .f32 := Host.absf main_arg2
  let main_cst_2 : FVec F S_ .f32 := constant S_ .f32 0x7F800000#32
  let main_v10 : FVec F S8x2x24x24x24 .f32 := broadcastInDim S8x2x24x24x24 ![] bcast_S_S8x2x24x24x24 main_cst_2
  let main_v11 : IVec S8x2x24x24x24 1 := cmpf .olt main_v9 main_v10
  let main_c_3 : IVec S_ 1 := constantI S_ 1 1#1
  let main_v12 : IVec S_ 1 := (fun x v => Host.reduce IntOp.andi x v reducesTo_S8x2x24x24x24_S_d0_1_2_3_4 h_S_) main_v11 main_c_3
  let main_v13 : IVec S_ 1 := andi main_v8 main_v12
  let main_v14 : FVec F S8x2x96x96x96 .f32 := Host.absf main_arg3
  let main_cst_4 : FVec F S_ .f32 := constant S_ .f32 0x7F800000#32
  let main_v15 : FVec F S8x2x96x96x96 .f32 := broadcastInDim S8x2x96x96x96 ![] bcast_S_S8x2x96x96x96 main_cst_4
  let main_v16 : IVec S8x2x96x96x96 1 := cmpf .olt main_v14 main_v15
  fn_part1 (F := F) main_arg4 main_arg5 main_v13 main_v16
-- ==== Kernel.lean ====
abbrev S8x2x96x96x96 : Shape := ⟨5, ![8, 2, 96, 96, 96]⟩
abbrev S8x2x48x48x48 : Shape := ⟨5, ![8, 2, 48, 48, 48]⟩
abbrev S8x2x24x24x24 : Shape := ⟨5, ![8, 2, 24, 24, 24]⟩
abbrev S8x128x4 : Shape := ⟨3, ![8, 128, 4]⟩
abbrev S110592x128 : Shape := ⟨2, ![110592, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩
abbrev S8x128x1 : Shape := ⟨3, ![8, 128, 1]⟩
abbrev S8x128 : Shape := ⟨2, ![8, 128]⟩
abbrev S8 : Shape := ⟨1, ![8]⟩
abbrev S8x1 : Shape := ⟨2, ![8, 1]⟩
abbrev S8x128x5 : Shape := ⟨3, ![8, 128, 5]⟩
abbrev S13824x128 : Shape := ⟨2, ![13824, 128]⟩
abbrev S512x128 : Shape := ⟨2, ![512, 128]⟩
abbrev S512 : Shape := ⟨1, ![512]⟩
abbrev S512x1 : Shape := ⟨2, ![512, 1]⟩
abbrev S1728x128 : Shape := ⟨2, ![1728, 128]⟩
abbrev S64x128 : Shape := ⟨2, ![64, 128]⟩
abbrev S64 : Shape := ⟨1, ![64]⟩
abbrev S64x1 : Shape := ⟨2, ![64, 1]⟩
abbrev S2 : Shape := ⟨1, ![2]⟩

abbrev nBuf : Space → Nat
  | .hbm => 388
  | .vmem => 18
  | .smem => 0
  | _ => 0

abbrev hbmTy0_0 (i : Nat) : BufTy := match i % 128 with
  | 0 => ⟨S8x2x96x96x96, .f32⟩
  | 1 => ⟨S8x2x48x48x48, .f32⟩
  | 2 => ⟨S8x2x24x24x24, .f32⟩
  | 3 => ⟨S8x2x96x96x96, .f32⟩
  | 4 => ⟨S8x2x48x48x48, .f32⟩
  | 5 => ⟨S8x2x24x24x24, .f32⟩
  | 6 => ⟨S8x128x4, .i32⟩
  | 7 => ⟨S8x128x4, .i32⟩
  | 8 => ⟨S8x128x4, .i32⟩
  | 9 => ⟨S110592x128, .f32⟩
  | 10 => ⟨S110592x128, .f32⟩
  | 11 => ⟨S1x1, .f32⟩
  | 12 => ⟨S1x1, .f32⟩
  | 13 => ⟨S_, .f32⟩
  | 14 => ⟨S_, .f32⟩
  | 15 => ⟨S_, .f32⟩
  | 16 => ⟨S_, .f32⟩
  | 17 => ⟨S_, .f32⟩
  | 18 => ⟨S8x128x1, .i32⟩
  | 19 => ⟨S8x128, .i32⟩
  | 20 => ⟨S_, .i32⟩
  | 21 => ⟨S8x128, .i32⟩
  | 22 => ⟨S8x128, .i1⟩
  | 23 => ⟨S_, .i32⟩
  | 24 => ⟨S8x128x4, .i32⟩
  | 25 => ⟨S8x128x4, .i32⟩
  | 26 => ⟨S8, .i32⟩
  | 27 => ⟨S8x1, .i32⟩
  | 28 => ⟨S8x128x1, .i32⟩
  | 29 => ⟨S8x128, .i32⟩
  | 30 => ⟨S8x128x1, .i32⟩
  | 31 => ⟨S8x128, .i32⟩
  | 32 => ⟨S8x128x1, .i32⟩
  | 33 => ⟨S8x128, .i32⟩
  | 34 => ⟨S8x128x1, .i32⟩
  | 35 => ⟨S8x128, .i32⟩
  | 36 => ⟨S_, .i32⟩
  | 37 => ⟨S8x1, .i32⟩
  | 38 => ⟨S8x1, .i1⟩
  | 39 => ⟨S_, .i32⟩
  | 40 => ⟨S8x1, .i32⟩
  | 41 => ⟨S8x1, .i32⟩
  | 42 => ⟨S8x1, .i32⟩
  | 43 => ⟨S_, .i32⟩
  | 44 => ⟨S8x128, .i32⟩
  | 45 => ⟨S8x128, .i1⟩
  | 46 => ⟨S_, .i32⟩
  | 47 => ⟨S8x128, .i32⟩
  | 48 => ⟨S8x128, .i32⟩
  | 49 => ⟨S8x128, .i32⟩
  | 50 => ⟨S_, .i32⟩
  | 51 => ⟨S8x128, .i32⟩
  | 52 => ⟨S8x128, .i1⟩
  | 53 => ⟨S_, .i32⟩
  | 54 => ⟨S8x128, .i32⟩
  | 55 => ⟨S8x128, .i32⟩
  | 56 => ⟨S8x128, .i32⟩
  | 57 => ⟨S_, .i32⟩
  | 58 => ⟨S8x128, .i32⟩
  | 59 => ⟨S8x128, .i1⟩
  | 60 => ⟨S_, .i32⟩
  | 61 => ⟨S8x128, .i32⟩
  | 62 => ⟨S8x128, .i32⟩
  | 63 => ⟨S8x128, .i32⟩
  | 64 => ⟨S_, .i32⟩
  | 65 => ⟨S8x128, .i32⟩
  | 66 => ⟨S8x128, .i1⟩
  | 67 => ⟨S_, .i32⟩
  | 68 => ⟨S8x128, .i32⟩
  | 69 => ⟨S8x128, .i32⟩
  | 70 => ⟨S8x128, .i32⟩
  | 71 => ⟨S8x128, .i32⟩
  | 72 => ⟨S8x128x1, .i32⟩
  | 73 => ⟨S8x128x1, .i32⟩
  | 74 => ⟨S8x128x1, .i32⟩
  | 75 => ⟨S8x128x1, .i32⟩
  | 76 => ⟨S8x128x1, .i32⟩
  | 77 => ⟨S8x128x5, .i32⟩
  | 78 => ⟨S8x128, .f32⟩
  | 79 => ⟨S8x128, .f32⟩
  | 80 => ⟨S8x128, .f32⟩
  | 81 => ⟨S_, .f32⟩
  | 82 => ⟨S8x128, .f32⟩
  | 83 => ⟨S8x128, .f32⟩
  | 84 => ⟨S_, .f32⟩
  | 85 => ⟨S8x128, .f32⟩
  | 86 => ⟨S8x128, .f32⟩
  | 87 => ⟨S_, .f32⟩
  | 88 => ⟨S8x128, .f32⟩
  | 89 => ⟨S8x128, .f32⟩
  | 90 => ⟨S_, .f32⟩
  | 91 => ⟨S8x128, .f32⟩
  | 92 => ⟨S8x128, .f32⟩
  | 93 => ⟨S8x128, .f32⟩
  | 94 => ⟨S8x128, .f32⟩
  | 95 => ⟨S_, .f32⟩
  | 96 => ⟨S8, .f32⟩
  | 97 => ⟨S8x128, .f32⟩
  | 98 => ⟨S_, .f32⟩
  | 99 => ⟨S8x128, .f32⟩
  | 100 => ⟨S8x128, .f32⟩
  | 101 => ⟨S8x128, .f32⟩
  | 102 => ⟨S8x128, .f32⟩
  | 103 => ⟨S8x128, .i1⟩
  | 104 => ⟨S8x128, .f32⟩
  | 105 => ⟨S8x128, .f32⟩
  | 106 => ⟨S8x128, .f32⟩
  | 107 => ⟨S8x128, .f32⟩
  | 108 => ⟨S8x128, .f32⟩
  | 109 => ⟨S8x128, .f32⟩
  | 110 => ⟨S8x128, .f32⟩
  | 111 => ⟨S8x128, .f32⟩
  | 112 => ⟨S8x128, .f32⟩
  | 113 => ⟨S8x128, .f32⟩
  | 114 => ⟨S_, .f32⟩
  | 115 => ⟨S8, .f32⟩
  | 116 => ⟨S_, .i1⟩
  | 117 => ⟨S8, .i1⟩
  | 118 => ⟨S8, .f32⟩
  | 119 => ⟨S_, .f32⟩
  | 120 => ⟨S8, .f32⟩
  | 121 => ⟨S8, .i1⟩
  | 122 => ⟨S_, .f32⟩
  | 123 => ⟨S_, .f32⟩
  | 124 => ⟨S8, .f32⟩
  | 125 => ⟨S8, .f32⟩
  | 126 => ⟨S8, .f32⟩
  | 127 => ⟨S_, .f32⟩
  | _ => ⟨S8x2x96x96x96, .f32⟩

abbrev hbmTy0_1 (i : Nat) : BufTy := match i % 128 with
  | 0 => ⟨S_, .f32⟩
  | 1 => ⟨S8, .f32⟩
  | 2 => ⟨S8, .f32⟩
  | 3 => ⟨S_, .f32⟩
  | 4 => ⟨S_, .f32⟩
  | 5 => ⟨S_, .f32⟩
  | 6 => ⟨S_, .f32⟩
  | 7 => ⟨S13824x128, .f32⟩
  | 8 => ⟨S13824x128, .f32⟩
  | 9 => ⟨S1x1, .f32⟩
  | 10 => ⟨S1x1, .f32⟩
  | 11 => ⟨S_, .f32⟩
  | 12 => ⟨S_, .f32⟩
  | 13 => ⟨S_, .f32⟩
  | 14 => ⟨S_, .f32⟩
  | 15 => ⟨S8x128x1, .i32⟩
  | 16 => ⟨S8x128, .i32⟩
  | 17 => ⟨S_, .i32⟩
  | 18 => ⟨S8x128, .i32⟩
  | 19 => ⟨S8x128, .i1⟩
  | 20 => ⟨S_, .i32⟩
  | 21 => ⟨S8x128x4, .i32⟩
  | 22 => ⟨S8x128x4, .i32⟩
  | 23 => ⟨S8, .i32⟩
  | 24 => ⟨S8x1, .i32⟩
  | 25 => ⟨S8x128x1, .i32⟩
  | 26 => ⟨S8x128, .i32⟩
  | 27 => ⟨S8x128x1, .i32⟩
  | 28 => ⟨S8x128, .i32⟩
  | 29 => ⟨S8x128x1, .i32⟩
  | 30 => ⟨S8x128, .i32⟩
  | 31 => ⟨S8x128x1, .i32⟩
  | 32 => ⟨S8x128, .i32⟩
  | 33 => ⟨S_, .i32⟩
  | 34 => ⟨S8x1, .i32⟩
  | 35 => ⟨S8x1, .i1⟩
  | 36 => ⟨S_, .i32⟩
  | 37 => ⟨S8x1, .i32⟩
  | 38 => ⟨S8x1, .i32⟩
  | 39 => ⟨S8x1, .i32⟩
  | 40 => ⟨S_, .i32⟩
  | 41 => ⟨S8x128, .i32⟩
  | 42 => ⟨S8x128, .i1⟩
  | 43 => ⟨S_, .i32⟩
  | 44 => ⟨S8x128, .i32⟩
  | 45 => ⟨S8x128, .i32⟩
  | 46 => ⟨S8x128, .i32⟩
  | 47 => ⟨S_, .i32⟩
  | 48 => ⟨S8x128, .i32⟩
  | 49 => ⟨S8x128, .i1⟩
  | 50 => ⟨S_, .i32⟩
  | 51 => ⟨S8x128, .i32⟩
  | 52 => ⟨S8x128, .i32⟩
  | 53 => ⟨S8x128, .i32⟩
  | 54 => ⟨S_, .i32⟩
  | 55 => ⟨S8x128, .i32⟩
  | 56 => ⟨S8x128, .i1⟩
  | 57 => ⟨S_, .i32⟩
  | 58 => ⟨S8x128, .i32⟩
  | 59 => ⟨S8x128, .i32⟩
  | 60 => ⟨S8x128, .i32⟩
  | 61 => ⟨S_, .i32⟩
  | 62 => ⟨S8x128, .i32⟩
  | 63 => ⟨S8x128, .i1⟩
  | 64 => ⟨S_, .i32⟩
  | 65 => ⟨S8x128, .i32⟩
  | 66 => ⟨S8x128, .i32⟩
  | 67 => ⟨S8x128, .i32⟩
  | 68 => ⟨S8x128, .i32⟩
  | 69 => ⟨S8x128x1, .i32⟩
  | 70 => ⟨S8x128x1, .i32⟩
  | 71 => ⟨S8x128x1, .i32⟩
  | 72 => ⟨S8x128x1, .i32⟩
  | 73 => ⟨S8x128x1, .i32⟩
  | 74 => ⟨S8x128x5, .i32⟩
  | 75 => ⟨S8x128, .f32⟩
  | 76 => ⟨S8x128, .f32⟩
  | 77 => ⟨S8x128, .f32⟩
  | 78 => ⟨S_, .f32⟩
  | 79 => ⟨S8x128, .f32⟩
  | 80 => ⟨S8x128, .f32⟩
  | 81 => ⟨S_, .f32⟩
  | 82 => ⟨S8x128, .f32⟩
  | 83 => ⟨S8x128, .f32⟩
  | 84 => ⟨S_, .f32⟩
  | 85 => ⟨S8x128, .f32⟩
  | 86 => ⟨S8x128, .f32⟩
  | 87 => ⟨S_, .f32⟩
  | 88 => ⟨S8x128, .f32⟩
  | 89 => ⟨S8x128, .f32⟩
  | 90 => ⟨S8x128, .f32⟩
  | 91 => ⟨S8x128, .f32⟩
  | 92 => ⟨S_, .f32⟩
  | 93 => ⟨S8, .f32⟩
  | 94 => ⟨S8x128, .f32⟩
  | 95 => ⟨S_, .f32⟩
  | 96 => ⟨S8x128, .f32⟩
  | 97 => ⟨S8x128, .f32⟩
  | 98 => ⟨S8x128, .f32⟩
  | 99 => ⟨S8x128, .f32⟩
  | 100 => ⟨S8x128, .i1⟩
  | 101 => ⟨S8x128, .f32⟩
  | 102 => ⟨S8x128, .f32⟩
  | 103 => ⟨S8x128, .f32⟩
  | 104 => ⟨S8x128, .f32⟩
  | 105 => ⟨S8x128, .f32⟩
  | 106 => ⟨S8x128, .f32⟩
  | 107 => ⟨S8x128, .f32⟩
  | 108 => ⟨S8x128, .f32⟩
  | 109 => ⟨S8x128, .f32⟩
  | 110 => ⟨S8x128, .f32⟩
  | 111 => ⟨S_, .f32⟩
  | 112 => ⟨S8, .f32⟩
  | 113 => ⟨S_, .i1⟩
  | 114 => ⟨S8, .i1⟩
  | 115 => ⟨S8, .f32⟩
  | 116 => ⟨S_, .f32⟩
  | 117 => ⟨S8, .f32⟩
  | 118 => ⟨S8, .i1⟩
  | 119 => ⟨S_, .f32⟩
  | 120 => ⟨S_, .f32⟩
  | 121 => ⟨S8, .f32⟩
  | 122 => ⟨S8, .f32⟩
  | 123 => ⟨S8, .f32⟩
  | 124 => ⟨S_, .f32⟩
  | 125 => ⟨S_, .f32⟩
  | 126 => ⟨S8, .f32⟩
  | 127 => ⟨S8, .f32⟩
  | _ => ⟨S8x2x96x96x96, .f32⟩

abbrev hbmTy0_2 (i : Nat) : BufTy := match i % 128 with
  | 0 => ⟨S_, .f32⟩
  | 1 => ⟨S_, .f32⟩
  | 2 => ⟨S_, .f32⟩
  | 3 => ⟨S1728x128, .f32⟩
  | 4 => ⟨S1728x128, .f32⟩
  | 5 => ⟨S1x1, .f32⟩
  | 6 => ⟨S1x1, .f32⟩
  | 7 => ⟨S_, .f32⟩
  | 8 => ⟨S_, .f32⟩
  | 9 => ⟨S_, .f32⟩
  | 10 => ⟨S_, .f32⟩
  | 11 => ⟨S8x128x1, .i32⟩
  | 12 => ⟨S8x128, .i32⟩
  | 13 => ⟨S_, .i32⟩
  | 14 => ⟨S8x128, .i32⟩
  | 15 => ⟨S8x128, .i1⟩
  | 16 => ⟨S_, .i32⟩
  | 17 => ⟨S8x128x4, .i32⟩
  | 18 => ⟨S8x128x4, .i32⟩
  | 19 => ⟨S8, .i32⟩
  | 20 => ⟨S8x1, .i32⟩
  | 21 => ⟨S8x128x1, .i32⟩
  | 22 => ⟨S8x128, .i32⟩
  | 23 => ⟨S8x128x1, .i32⟩
  | 24 => ⟨S8x128, .i32⟩
  | 25 => ⟨S8x128x1, .i32⟩
  | 26 => ⟨S8x128, .i32⟩
  | 27 => ⟨S8x128x1, .i32⟩
  | 28 => ⟨S8x128, .i32⟩
  | 29 => ⟨S_, .i32⟩
  | 30 => ⟨S8x1, .i32⟩
  | 31 => ⟨S8x1, .i1⟩
  | 32 => ⟨S_, .i32⟩
  | 33 => ⟨S8x1, .i32⟩
  | 34 => ⟨S8x1, .i32⟩
  | 35 => ⟨S8x1, .i32⟩
  | 36 => ⟨S_, .i32⟩
  | 37 => ⟨S8x128, .i32⟩
  | 38 => ⟨S8x128, .i1⟩
  | 39 => ⟨S_, .i32⟩
  | 40 => ⟨S8x128, .i32⟩
  | 41 => ⟨S8x128, .i32⟩
  | 42 => ⟨S8x128, .i32⟩
  | 43 => ⟨S_, .i32⟩
  | 44 => ⟨S8x128, .i32⟩
  | 45 => ⟨S8x128, .i1⟩
  | 46 => ⟨S_, .i32⟩
  | 47 => ⟨S8x128, .i32⟩
  | 48 => ⟨S8x128, .i32⟩
  | 49 => ⟨S8x128, .i32⟩
  | 50 => ⟨S_, .i32⟩
  | 51 => ⟨S8x128, .i32⟩
  | 52 => ⟨S8x128, .i1⟩
  | 53 => ⟨S_, .i32⟩
  | 54 => ⟨S8x128, .i32⟩
  | 55 => ⟨S8x128, .i32⟩
  | 56 => ⟨S8x128, .i32⟩
  | 57 => ⟨S_, .i32⟩
  | 58 => ⟨S8x128, .i32⟩
  | 59 => ⟨S8x128, .i1⟩
  | 60 => ⟨S_, .i32⟩
  | 61 => ⟨S8x128, .i32⟩
  | 62 => ⟨S8x128, .i32⟩
  | 63 => ⟨S8x128, .i32⟩
  | 64 => ⟨S8x128, .i32⟩
  | 65 => ⟨S8x128x1, .i32⟩
  | 66 => ⟨S8x128x1, .i32⟩
  | 67 => ⟨S8x128x1, .i32⟩
  | 68 => ⟨S8x128x1, .i32⟩
  | 69 => ⟨S8x128x1, .i32⟩
  | 70 => ⟨S8x128x5, .i32⟩
  | 71 => ⟨S8x128, .f32⟩
  | 72 => ⟨S8x128, .f32⟩
  | 73 => ⟨S8x128, .f32⟩
  | 74 => ⟨S_, .f32⟩
  | 75 => ⟨S8x128, .f32⟩
  | 76 => ⟨S8x128, .f32⟩
  | 77 => ⟨S_, .f32⟩
  | 78 => ⟨S8x128, .f32⟩
  | 79 => ⟨S8x128, .f32⟩
  | 80 => ⟨S_, .f32⟩
  | 81 => ⟨S8x128, .f32⟩
  | 82 => ⟨S8x128, .f32⟩
  | 83 => ⟨S_, .f32⟩
  | 84 => ⟨S8x128, .f32⟩
  | 85 => ⟨S8x128, .f32⟩
  | 86 => ⟨S8x128, .f32⟩
  | 87 => ⟨S8x128, .f32⟩
  | 88 => ⟨S_, .f32⟩
  | 89 => ⟨S8, .f32⟩
  | 90 => ⟨S8x128, .f32⟩
  | 91 => ⟨S_, .f32⟩
  | 92 => ⟨S8x128, .f32⟩
  | 93 => ⟨S8x128, .f32⟩
  | 94 => ⟨S8x128, .f32⟩
  | 95 => ⟨S8x128, .f32⟩
  | 96 => ⟨S8x128, .i1⟩
  | 97 => ⟨S8x128, .f32⟩
  | 98 => ⟨S8x128, .f32⟩
  | 99 => ⟨S8x128, .f32⟩
  | 100 => ⟨S8x128, .f32⟩
  | 101 => ⟨S8x128, .f32⟩
  | 102 => ⟨S8x128, .f32⟩
  | 103 => ⟨S8x128, .f32⟩
  | 104 => ⟨S8x128, .f32⟩
  | 105 => ⟨S8x128, .f32⟩
  | 106 => ⟨S8x128, .f32⟩
  | 107 => ⟨S_, .f32⟩
  | 108 => ⟨S8, .f32⟩
  | 109 => ⟨S_, .i1⟩
  | 110 => ⟨S8, .i1⟩
  | 111 => ⟨S8, .f32⟩
  | 112 => ⟨S_, .f32⟩
  | 113 => ⟨S8, .f32⟩
  | 114 => ⟨S8, .i1⟩
  | 115 => ⟨S_, .f32⟩
  | 116 => ⟨S_, .f32⟩
  | 117 => ⟨S8, .f32⟩
  | 118 => ⟨S8, .f32⟩
  | 119 => ⟨S8, .f32⟩
  | 120 => ⟨S_, .f32⟩
  | 121 => ⟨S_, .f32⟩
  | 122 => ⟨S8, .f32⟩
  | 123 => ⟨S8, .f32⟩
  | 124 => ⟨S_, .f32⟩
  | 125 => ⟨S_, .f32⟩
  | 126 => ⟨S_, .f32⟩
  | 127 => ⟨S1, .f32⟩
  | _ => ⟨S8x2x96x96x96, .f32⟩

abbrev hbmTy0_3 (i : Nat) : BufTy := match i % 128 with
  | 0 => ⟨S1, .f32⟩
  | 1 => ⟨S2, .f32⟩
  | 2 => ⟨S_, .f32⟩
  | 3 => ⟨S2, .f32⟩
  | _ => ⟨S8x2x96x96x96, .f32⟩

abbrev hbmTy (i : Nat) : BufTy := match i / 128 with
  | 0 => hbmTy0_0 i
  | 1 => hbmTy0_1 i
  | 2 => hbmTy0_2 i
  | 3 => hbmTy0_3 i
  | _ => ⟨S8x2x96x96x96, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1, .f32⟩
  | .local _ .vmem, ⟨5, _⟩ => ⟨S1x1, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x1, .f32⟩
  | .local _ .vmem, ⟨11, _⟩ => ⟨S1x1, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S1x1, .f32⟩
  | .local _ .vmem, ⟨17, _⟩ => ⟨S1x1, .f32⟩
  | _, _ => ⟨S8x2x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_15 : Ref sig .tc := ⟨.hbm, 95, rfl⟩
abbrev main_v68 : Ref sig .tc := ⟨.hbm, 96, rfl⟩
abbrev main_call0_v0 : Ref sig .tc := ⟨.hbm, 97, rfl⟩
abbrev main_call0_call0_cst : Ref sig .tc := ⟨.hbm, 98, rfl⟩
abbrev main_call0_call0_v0 : Ref sig .tc := ⟨.hbm, 99, rfl⟩
abbrev main_call0_call0_v1 : Ref sig .tc := ⟨.hbm, 100, rfl⟩
abbrev main_call0_call0_v2 : Ref sig .tc := ⟨.hbm, 101, rfl⟩
abbrev main_call0_call0_v3 : Ref sig .tc := ⟨.hbm, 102, rfl⟩
abbrev main_call0_call0_v4 : Ref sig .tc := ⟨.hbm, 103, rfl⟩
abbrev main_call0_call0_v5 : Ref sig .tc := ⟨.hbm, 104, rfl⟩
abbrev main_call0_call0_v6 : Ref sig .tc := ⟨.hbm, 105, rfl⟩
abbrev main_call0_call0_v7 : Ref sig .tc := ⟨.hbm, 106, rfl⟩
abbrev main_call0_call0_v8 : Ref sig .tc := ⟨.hbm, 107, rfl⟩
abbrev main_call0_call0_v9 : Ref sig .tc := ⟨.hbm, 108, rfl⟩
abbrev main_call0_call0_v10 : Ref sig .tc := ⟨.hbm, 109, rfl⟩
abbrev main_call0_call0_v11 : Ref sig .tc := ⟨.hbm, 110, rfl⟩
abbrev main_call0_v1 : Ref sig .tc := ⟨.hbm, 111, rfl⟩
abbrev main_v69 : Ref sig .tc := ⟨.hbm, 112, rfl⟩
abbrev main_v70 : Ref sig .tc := ⟨.hbm, 113, rfl⟩
abbrev main_cst_16 : Ref sig .tc := ⟨.hbm, 114, rfl⟩
abbrev main_v71 : Ref sig .tc := ⟨.hbm, 115, rfl⟩
abbrev main_c_17 : Ref sig .tc := ⟨.hbm, 116, rfl⟩
abbrev main_v72 : Ref sig .tc := ⟨.hbm, 117, rfl⟩
abbrev main_v73 : Ref sig .tc := ⟨.hbm, 118, rfl⟩
abbrev main_cst_18 : Ref sig .tc := ⟨.hbm, 119, rfl⟩
abbrev main_v74 : Ref sig .tc := ⟨.hbm, 120, rfl⟩
abbrev main_v75 : Ref sig .tc := ⟨.hbm, 121, rfl⟩
abbrev main_cst_19 : Ref sig .tc := ⟨.hbm, 122, rfl⟩
abbrev main_call1_v0 : Ref sig .tc := ⟨.hbm, 123, rfl⟩
abbrev main_call1_v1 : Ref sig .tc := ⟨.hbm, 124, rfl⟩
abbrev main_v76 : Ref sig .tc := ⟨.hbm, 125, rfl⟩
abbrev main_v77 : Ref sig .tc := ⟨.hbm, 126, rfl⟩
abbrev main_cst_20 : Ref sig .tc := ⟨.hbm, 127, rfl⟩
abbrev main_call2_v0 : Ref sig .tc := ⟨.hbm, 128, rfl⟩
abbrev main_call2_v1 : Ref sig .tc := ⟨.hbm, 129, rfl⟩
abbrev main_v78 : Ref sig .tc := ⟨.hbm, 130, rfl⟩
abbrev main_cst_21 : Ref sig .tc := ⟨.hbm, 131, rfl⟩
abbrev main_v79 : Ref sig .tc := ⟨.hbm, 132, rfl⟩
abbrev main_cst_22 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83_0 : Ref sig .tc := ⟨.hbm, 137, rfl⟩
abbrev main_v83_1 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_c_23 : Ref sig .tc := ⟨.hbm, 145, rfl⟩
abbrev main_v90 : Ref sig .tc := ⟨.hbm, 146, rfl⟩
abbrev main_v91 : Ref sig .tc := ⟨.hbm, 147, rfl⟩
abbrev main_c_24 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_c_25 : Ref sig .tc := ⟨.hbm, 161, rfl⟩
abbrev main_v104 : Ref sig .tc := ⟨.hbm, 162, rfl⟩
abbrev main_v105 : Ref sig .tc := ⟨.hbm, 163, rfl⟩
abbrev main_c_26 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_c_27 : Ref sig .tc := ⟨.hbm, 168, rfl⟩
abbrev main_v109 : Ref sig .tc := ⟨.hbm, 169, rfl⟩
abbrev main_v110 : Ref sig .tc := ⟨.hbm, 170, rfl⟩
abbrev main_c_28 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_c_29 : Ref sig .tc := ⟨.hbm, 175, rfl⟩
abbrev main_v114 : Ref sig .tc := ⟨.hbm, 176, rfl⟩
abbrev main_v115 : Ref sig .tc := ⟨.hbm, 177, rfl⟩
abbrev main_c_30 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_c_31 : Ref sig .tc := ⟨.hbm, 182, rfl⟩
abbrev main_v119 : Ref sig .tc := ⟨.hbm, 183, rfl⟩
abbrev main_v120 : Ref sig .tc := ⟨.hbm, 184, rfl⟩
abbrev main_c_32 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_c_33 : Ref sig .tc := ⟨.hbm, 189, rfl⟩
abbrev main_v124 : Ref sig .tc := ⟨.hbm, 190, rfl⟩
abbrev main_v125 : Ref sig .tc := ⟨.hbm, 191, rfl⟩
abbrev main_c_34 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_cst_35 : Ref sig .tc := ⟨.hbm, 206, rfl⟩
abbrev main_v139 : Ref sig .tc := ⟨.hbm, 207, rfl⟩
abbrev main_v140 : Ref sig .tc := ⟨.hbm, 208, rfl⟩
abbrev main_cst_36 : Ref sig .tc := ⟨.hbm, 209, rfl⟩
abbrev main_v141 : Ref sig .tc := ⟨.hbm, 210, rfl⟩
abbrev main_v142 : Ref sig .tc := ⟨.hbm, 211, rfl⟩
abbrev main_cst_37 : Ref sig .tc := ⟨.hbm, 212, rfl⟩
abbrev main_v143 : Ref sig .tc := ⟨.hbm, 213, rfl⟩
abbrev main_v144 : Ref sig .tc := ⟨.hbm, 214, rfl⟩
abbrev main_cst_38 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_cst_39 : Ref sig .tc := ⟨.hbm, 220, rfl⟩
abbrev main_v149 : Ref sig .tc := ⟨.hbm, 221, rfl⟩
abbrev main_call3_v0 : Ref sig .tc := ⟨.hbm, 222, rfl⟩
abbrev main_call3_call0_cst : Ref sig .tc := ⟨.hbm, 223, rfl⟩
abbrev main_call3_call0_v0 : Ref sig .tc := ⟨.hbm, 224, rfl⟩
abbrev main_call3_call0_v1 : Ref sig .tc := ⟨.hbm, 225, rfl⟩
abbrev main_call3_call0_v2 : Ref sig .tc := ⟨.hbm, 226, rfl⟩
abbrev main_call3_call0_v3 : Ref sig .tc := ⟨.hbm, 227, rfl⟩
abbrev main_call3_call0_v4 : Ref sig .tc := ⟨.hbm, 228, rfl⟩
abbrev main_call3_call0_v5 : Ref sig .tc := ⟨.hbm, 229, rfl⟩
abbrev main_call3_call0_v6 : Ref sig .tc := ⟨.hbm, 230, rfl⟩
abbrev main_call3_call0_v7 : Ref sig .tc := ⟨.hbm, 231, rfl⟩
abbrev main_call3_call0_v8 : Ref sig .tc := ⟨.hbm, 232, rfl⟩
abbrev main_call3_call0_v9 : Ref sig .tc := ⟨.hbm, 233, rfl⟩
abbrev main_call3_call0_v10 : Ref sig .tc := ⟨.hbm, 234, rfl⟩
abbrev main_call3_call0_v11 : Ref sig .tc := ⟨.hbm, 235, rfl⟩
abbrev main_call3_v1 : Ref sig .tc := ⟨.hbm, 236, rfl⟩
abbrev main_v150 : Ref sig .tc := ⟨.hbm, 237, rfl⟩
abbrev main_v151 : Ref sig .tc := ⟨.hbm, 238, rfl⟩
abbrev main_cst_40 : Ref sig .tc := ⟨.hbm, 239, rfl⟩
abbrev main_v152 : Ref sig .tc := ⟨.hbm, 240, rfl⟩
abbrev main_c_41 : Ref sig .tc := ⟨.hbm, 241, rfl⟩
abbrev main_v153 : Ref sig .tc := ⟨.hbm, 242, rfl⟩
abbrev main_v154 : Ref sig .tc := ⟨.hbm, 243, rfl⟩
abbrev main_cst_42 : Ref sig .tc := ⟨.hbm, 244, rfl⟩
abbrev main_v155 : Ref sig .tc := ⟨.hbm, 245, rfl⟩
abbrev main_v156 : Ref sig .tc := ⟨.hbm, 246, rfl⟩
abbrev main_cst_43 : Ref sig .tc := ⟨.hbm, 247, rfl⟩
abbrev main_call4_v0 : Ref sig .tc := ⟨.hbm, 248, rfl⟩
abbrev main_call4_v1 : Ref sig .tc := ⟨.hbm, 249, rfl⟩
abbrev main_v157 : Ref sig .tc := ⟨.hbm, 250, rfl⟩
abbrev main_v158 : Ref sig .tc := ⟨.hbm, 251, rfl⟩
abbrev main_cst_44 : Ref sig .tc := ⟨.hbm, 252, rfl⟩
abbrev main_call5_v0 : Ref sig .tc := ⟨.hbm, 253, rfl⟩
abbrev main_call5_v1 : Ref sig .tc := ⟨.hbm, 254, rfl⟩
abbrev main_v159 : Ref sig .tc := ⟨.hbm, 255, rfl⟩
abbrev main_cst_45 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164_0 : Ref sig .tc := ⟨.hbm, 261, rfl⟩
abbrev main_v164_1 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_c_46 : Ref sig .tc := ⟨.hbm, 269, rfl⟩
abbrev main_v171 : Ref sig .tc := ⟨.hbm, 270, rfl⟩
abbrev main_v172 : Ref sig .tc := ⟨.hbm, 271, rfl⟩
abbrev main_c_47 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_c_48 : Ref sig .tc := ⟨.hbm, 285, rfl⟩
abbrev main_v185 : Ref sig .tc := ⟨.hbm, 286, rfl⟩
abbrev main_v186 : Ref sig .tc := ⟨.hbm, 287, rfl⟩
abbrev main_c_49 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_c_50 : Ref sig .tc := ⟨.hbm, 292, rfl⟩
abbrev main_v190 : Ref sig .tc := ⟨.hbm, 293, rfl⟩
abbrev main_v191 : Ref sig .tc := ⟨.hbm, 294, rfl⟩
abbrev main_c_51 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_c_52 : Ref sig .tc := ⟨.hbm, 299, rfl⟩
abbrev main_v195 : Ref sig .tc := ⟨.hbm, 300, rfl⟩
abbrev main_v196 : Ref sig .tc := ⟨.hbm, 301, rfl⟩
abbrev main_c_53 : Ref sig .tc := ⟨.hbm, 302, rfl⟩
abbrev main_v197 : Ref sig .tc := ⟨.hbm, 303, rfl⟩
abbrev main_v198 : Ref sig .tc := ⟨.hbm, 304, rfl⟩
abbrev main_v199 : Ref sig .tc := ⟨.hbm, 305, rfl⟩
abbrev main_c_54 : Ref sig .tc := ⟨.hbm, 306, rfl⟩
abbrev main_v200 : Ref sig .tc := ⟨.hbm, 307, rfl⟩
abbrev main_v201 : Ref sig .tc := ⟨.hbm, 308, rfl⟩
abbrev main_c_55 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_c_56 : Ref sig .tc := ⟨.hbm, 313, rfl⟩
abbrev main_v205 : Ref sig .tc := ⟨.hbm, 314, rfl⟩
abbrev main_v206 : Ref sig .tc := ⟨.hbm, 315, rfl⟩
abbrev main_c_57 : Ref sig .tc := ⟨.hbm, 316, rfl⟩
abbrev main_v207 : Ref sig .tc := ⟨.hbm, 317, rfl⟩
abbrev main_v208 : Ref sig .tc := ⟨.hbm, 318, rfl⟩
abbrev main_v209 : Ref sig .tc := ⟨.hbm, 319, rfl⟩
abbrev main_v210 : Ref sig .tc := ⟨.hbm, 320, rfl⟩
abbrev main_v211 : Ref sig .tc := ⟨.hbm, 321, rfl⟩
abbrev main_v212 : Ref sig .tc := ⟨.hbm, 322, rfl⟩
abbrev main_v213 : Ref sig .tc := ⟨.hbm, 323, rfl⟩
abbrev main_v214 : Ref sig .tc := ⟨.hbm, 324, rfl⟩
abbrev main_v215 : Ref sig .tc := ⟨.hbm, 325, rfl⟩
abbrev main_v216 : Ref sig .tc := ⟨.hbm, 326, rfl⟩
abbrev main_v217 : Ref sig .tc := ⟨.hbm, 327, rfl⟩
abbrev main_v218 : Ref sig .tc := ⟨.hbm, 328, rfl⟩
abbrev main_v219 : Ref sig .tc := ⟨.hbm, 329, rfl⟩
abbrev main_cst_58 : Ref sig .tc := ⟨.hbm, 330, rfl⟩
abbrev main_v220 : Ref sig .tc := ⟨.hbm, 331, rfl⟩
abbrev main_v221 : Ref sig .tc := ⟨.hbm, 332, rfl⟩
abbrev main_cst_59 : Ref sig .tc := ⟨.hbm, 333, rfl⟩
abbrev main_v222 : Ref sig .tc := ⟨.hbm, 334, rfl⟩
abbrev main_v223 : Ref sig .tc := ⟨.hbm, 335, rfl⟩
abbrev main_cst_60 : Ref sig .tc := ⟨.hbm, 336, rfl⟩
abbrev main_v224 : Ref sig .tc := ⟨.hbm, 337, rfl⟩
abbrev main_v225 : Ref sig .tc := ⟨.hbm, 338, rfl⟩
abbrev main_cst_61 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_cst_62 : Ref sig .tc := ⟨.hbm, 344, rfl⟩
abbrev main_v230 : Ref sig .tc := ⟨.hbm, 345, rfl⟩
abbrev main_call6_v0 : Ref sig .tc := ⟨.hbm, 346, rfl⟩
abbrev main_call6_call0_cst : Ref sig .tc := ⟨.hbm, 347, rfl⟩
abbrev main_call6_call0_v0 : Ref sig .tc := ⟨.hbm, 348, rfl⟩
abbrev main_call6_call0_v1 : Ref sig .tc := ⟨.hbm, 349, rfl⟩
abbrev main_call6_call0_v2 : Ref sig .tc := ⟨.hbm, 350, rfl⟩
abbrev main_call6_call0_v3 : Ref sig .tc := ⟨.hbm, 351, rfl⟩
abbrev main_call6_call0_v4 : Ref sig .tc := ⟨.hbm, 352, rfl⟩
abbrev main_call6_call0_v5 : Ref sig .tc := ⟨.hbm, 353, rfl⟩
abbrev main_call6_call0_v6 : Ref sig .tc := ⟨.hbm, 354, rfl⟩
abbrev main_call6_call0_v7 : Ref sig .tc := ⟨.hbm, 355, rfl⟩
abbrev main_call6_call0_v8 : Ref sig .tc := ⟨.hbm, 356, rfl⟩
abbrev main_call6_call0_v9 : Ref sig .tc := ⟨.hbm, 357, rfl⟩
abbrev main_call6_call0_v10 : Ref sig .tc := ⟨.hbm, 358, rfl⟩
abbrev main_call6_call0_v11 : Ref sig .tc := ⟨.hbm, 359, rfl⟩
abbrev main_call6_v1 : Ref sig .tc := ⟨.hbm, 360, rfl⟩
abbrev main_v231 : Ref sig .tc := ⟨.hbm, 361, rfl⟩
abbrev main_v232 : Ref sig .tc := ⟨.hbm, 362, rfl⟩
abbrev main_cst_63 : Ref sig .tc := ⟨.hbm, 363, rfl⟩
abbrev main_v233 : Ref sig .tc := ⟨.hbm, 364, rfl⟩
abbrev main_c_64 : Ref sig .tc := ⟨.hbm, 365, rfl⟩
abbrev main_v234 : Ref sig .tc := ⟨.hbm, 366, rfl⟩
abbrev main_v235 : Ref sig .tc := ⟨.hbm, 367, rfl⟩
abbrev main_cst_65 : Ref sig .tc := ⟨.hbm, 368, rfl⟩
abbrev main_v236 : Ref sig .tc := ⟨.hbm, 369, rfl⟩
abbrev main_v237 : Ref sig .tc := ⟨.hbm, 370, rfl⟩
abbrev main_cst_66 : Ref sig .tc := ⟨.hbm, 371, rfl⟩
abbrev main_call7_v0 : Ref sig .tc := ⟨.hbm, 372, rfl⟩
abbrev main_call7_v1 : Ref sig .tc := ⟨.hbm, 373, rfl⟩
abbrev main_v238 : Ref sig .tc := ⟨.hbm, 374, rfl⟩
abbrev main_v239 : Ref sig .tc := ⟨.hbm, 375, rfl⟩
abbrev main_cst_67 : Ref sig .tc := ⟨.hbm, 376, rfl⟩
abbrev main_call8_v0 : Ref sig .tc := ⟨.hbm, 377, rfl⟩
abbrev main_call8_v1 : Ref sig .tc := ⟨.hbm, 378, rfl⟩
abbrev main_v240 : Ref sig .tc := ⟨.hbm, 379, rfl⟩
abbrev main_cst_68 : Ref sig .tc := ⟨.hbm, 380, rfl⟩
abbrev main_v241 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_v245 : Ref sig .tc := ⟨.hbm, 385, rfl⟩
abbrev main_cst_69 : Ref sig .tc := ⟨.hbm, 386, rfl⟩
abbrev main_v246 : Ref sig .tc := ⟨.hbm, 387, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![27], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![27], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S64x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  shapeCasts_S8x2x96x96x96_S110592x128 : S8x2x96x96x96.ShapeCasts S110592x128
  inb_S1x1_S1x1_0_0 : ∀ a, (![0, 0] : Fin 2 → Nat) a + S1x1.size a ≤ S1x1.size a
  h_S1x1 : 0 < S1x1.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  shapeCasts_S1x1_S1x1 : S1x1.ShapeCasts S1x1
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S_ : S1x1.ShapeCasts S_
  slices_S8x128x4_S8x128x1_0_0_0 : S8x128x4.Slices ![0, 0, 0] S8x128x1
  shapeCasts_S8x128x1_S8x128 : S8x128x1.ShapeCasts S8x128
  bcast_S_S8x128 : S_.BroadcastsInDim S8x128 (![] : Fin 0 → Fin S8x128.rank)
  bcast_S_S8x128x4 : S_.BroadcastsInDim S8x128x4 (![] : Fin 0 → Fin S8x128x4.rank)
  bcast_S8_S8x1_0 : S8.BroadcastsInDim S8x1 (![0] : Fin 1 → Fin S8x1.rank)
  slices_S8x128x4_S8x128x1_0_0_1 : S8x128x4.Slices ![0, 0, 1] S8x128x1
  slices_S8x128x4_S8x128x1_0_0_2 : S8x128x4.Slices ![0, 0, 2] S8x128x1
  slices_S8x128x4_S8x128x1_0_0_3 : S8x128x4.Slices ![0, 0, 3] S8x128x1
  bcast_S_S8x1 : S_.BroadcastsInDim S8x1 (![] : Fin 0 → Fin S8x1.rank)
  bcast_S8x1_S8x128_0_1 : S8x1.BroadcastsInDim S8x128 (![0, 1] : Fin 2 → Fin S8x128.rank)
  bcast_S8x128_S8x128x1_0_1 : S8x128.BroadcastsInDim S8x128x1 (![0, 1] : Fin 2 → Fin S8x128x1.rank)
  concatenates_S8x128x1_S8x128x1_S8x128x1_S8x128x1_S8x128x1_S8x128x5_d2 : Shape.Concatenates [S8x128x1, S8x128x1, S8x128x1, S8x128x1, S8x128x1] S8x128x5 2
  reducesTo_S8x128_S8_d1 : S8x128.ReducesTo [1] S8
  h_S_ : 0 < S_.numel
  bcast_S_S8 : S_.BroadcastsInDim S8 (![] : Fin 0 → Fin S8.rank)
  reducesTo_S8_S_d0 : S8.ReducesTo [0] S_
  shapeCasts_S8x2x48x48x48_S13824x128 : S8x2x48x48x48.ShapeCasts S13824x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x128_S512 : S512x128.Reduces [1] S512
  shapeCasts_S512_S512x1 : S512.ShapeCasts S512x1
  reduces_S512x1_S1 : S512x1.Reduces [0] S1
  shapeCasts_S8x2x24x24x24_S1728x128 : S8x2x24x24x24.ShapeCasts S1728x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  reduces_S64x128_S64 : S64x128.Reduces [1] S64
  shapeCasts_S64_S64x1 : S64.ShapeCasts S64x1
  reduces_S64x1_S1 : S64x1.Reduces [0] S1
  bcast_S_S1 : S_.BroadcastsInDim S1 (![] : Fin 0 → Fin S1.rank)
  concatenates_S1_S1_S2_d0 : Shape.Concatenates [S1, S1] S2 0
  bcast_S_S2 : S_.BroadcastsInDim S2 (![] : Fin 0 → Fin S2.rank)
  gather_S8x2x96x96x96_S8x128x5_S8x128_n_01234_n_n_01234_2_11111_wf : GatherDims.WF S8x2x96x96x96 S8x128x5 S8x128 [] [0, 1, 2, 3, 4] [] [0, 1, 2, 3, 4] [] 2 ![1, 1, 1, 1, 1]
  gather_S8x2x48x48x48_S8x128x5_S8x128_n_01234_n_n_01234_2_11111_wf : GatherDims.WF S8x2x48x48x48 S8x128x5 S8x128 [] [0, 1, 2, 3, 4] [] [0, 1, 2, 3, 4] [] 2 ![1, 1, 1, 1, 1]
  gather_S8x2x24x24x24_S8x128x5_S8x128_n_01234_n_n_01234_2_11111_wf : GatherDims.WF S8x2x24x24x24 S8x128x5 S8x128 [] [0, 1, 2, 3, 4] [] [0, 1, 2, 3, 4] [] 2 ![1, 1, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S110592x128.size a
  hwx0_0 : ∀ i : grid0.Coords, EltTy.bits .f32 = 32 ∨ (Rect.block (s := S110592x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S110592x128.size a
  hwx0_1 : ∀ i : grid0.Coords, EltTy.bits .f32 = 32 ∨ (Rect.block (s := S110592x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S13824x128.size a
  hwx1_0 : ∀ i : grid1.Coords, EltTy.bits .f32 = 32 ∨ (Rect.block (s := S13824x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S13824x128.size a
  hwx1_1 : ∀ i : grid1.Coords, EltTy.bits .f32 = 32 ∨ (Rect.block (s := S13824x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x128.size a ≤ S1728x128.size a
  hwx2_0 : ∀ i : grid2.Coords, EltTy.bits .f32 = 32 ∨ (Rect.block (s := S1728x128) S64x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S1728x128.size a
  hwx2_1 : ∀ i : grid2.Coords, EltTy.bits .f32 = 32 ∨ (Rect.block (s := S1728x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)

variable [Facts₀]

def gather_S8x2x96x96x96_S8x128x5_S8x128_n_01234_n_n_01234_2_11111 : GatherDims S8x2x96x96x96 S8x128x5 S8x128 where
  offsetDims := []
  collapsedSliceDims := [0, 1, 2, 3, 4]
  operandBatchingDims := []
  startIndicesBatchingDims := []
  startIndexMap := [0, 1, 2, 3, 4]
  indexVectorDim := 2
  sliceSizes := ![1, 1, 1, 1, 1]
  wf := gather_S8x2x96x96x96_S8x128x5_S8x128_n_01234_n_n_01234_2_11111_wf
def gather_S8x2x48x48x48_S8x128x5_S8x128_n_01234_n_n_01234_2_11111 : GatherDims S8x2x48x48x48 S8x128x5 S8x128 where
  offsetDims := []
  collapsedSliceDims := [0, 1, 2, 3, 4]
  operandBatchingDims := []
  startIndicesBatchingDims := []
  startIndexMap := [0, 1, 2, 3, 4]
  indexVectorDim := 2
  sliceSizes := ![1, 1, 1, 1, 1]
  wf := gather_S8x2x48x48x48_S8x128x5_S8x128_n_01234_n_n_01234_2_11111_wf
def gather_S8x2x24x24x24_S8x128x5_S8x128_n_01234_n_n_01234_2_11111 : GatherDims S8x2x24x24x24 S8x128x5 S8x128 where
  offsetDims := []
  collapsedSliceDims := [0, 1, 2, 3, 4]
  operandBatchingDims := []
  startIndicesBatchingDims := []
  startIndexMap := [0, 1, 2, 3, 4]
  indexVectorDim := 2
  sliceSizes := ![1, 1, 1, 1, 1]
  wf := gather_S8x2x24x24x24_S8x128x5_S8x128_n_01234_n_n_01234_2_11111_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v81) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v82) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v83_0) S1x1.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v83_1) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v162) S64x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v163) S64x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v164_0) S1x1.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v164_1) S1x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x2x96x96x96 : Shape := ⟨5, ![8, 2, 96, 96, 96]⟩
abbrev S8x2x48x48x48 : Shape := ⟨5, ![8, 2, 48, 48, 48]⟩
abbrev S8x2x24x24x24 : Shape := ⟨5, ![8, 2, 24, 24, 24]⟩
abbrev S8x128x4 : Shape := ⟨3, ![8, 128, 4]⟩
abbrev S_ : Shape := ⟨0, ![]⟩
abbrev S8x128x1 : Shape := ⟨3, ![8, 128, 1]⟩
abbrev S8x128 : Shape := ⟨2, ![8, 128]⟩
abbrev S8 : Shape := ⟨1, ![8]⟩
abbrev S8x1 : Shape := ⟨2, ![8, 1]⟩
abbrev S8x128x5 : Shape := ⟨3, ![8, 128, 5]⟩
abbrev S1 : Shape := ⟨1, ![1]⟩
abbrev S2 : Shape := ⟨1, ![2]⟩

abbrev nBuf : Space → Nat
  | .hbm => 475
  | .vmem => 0
  | .smem => 0
  | _ => 0

abbrev hbmTy0_0 (i : Nat) : BufTy := match i % 128 with
  | 0 => ⟨S8x2x96x96x96, .f32⟩
  | 1 => ⟨S8x2x48x48x48, .f32⟩
  | 2 => ⟨S8x2x24x24x24, .f32⟩
  | 3 => ⟨S8x2x96x96x96, .f32⟩
  | 4 => ⟨S8x2x48x48x48, .f32⟩
  | 5 => ⟨S8x2x24x24x24, .f32⟩
  | 6 => ⟨S8x128x4, .i32⟩
  | 7 => ⟨S8x128x4, .i32⟩
  | 8 => ⟨S8x128x4, .i32⟩
  | 9 => ⟨S8x2x96x96x96, .f32⟩
  | 10 => ⟨S8x2x96x96x96, .f32⟩
  | 11 => ⟨S_, .f32⟩
  | 12 => ⟨S8x2x96x96x96, .f32⟩
  | 13 => ⟨S8x2x96x96x96, .f32⟩
  | 14 => ⟨S_, .f32⟩
  | 15 => ⟨S8x2x96x96x96, .f32⟩
  | 16 => ⟨S8x2x96x96x96, .f32⟩
  | 17 => ⟨S_, .f32⟩
  | 18 => ⟨S8x2x96x96x96, .f32⟩
  | 19 => ⟨S8x2x96x96x96, .i1⟩
  | 20 => ⟨S8x2x96x96x96, .f32⟩
  | 21 => ⟨S_, .f32⟩
  | 22 => ⟨S8x2x96x96x96, .f32⟩
  | 23 => ⟨S8x2x96x96x96, .f32⟩
  | 24 => ⟨S8x2x96x96x96, .f32⟩
  | 25 => ⟨S8x2x96x96x96, .f32⟩
  | 26 => ⟨S8x2x96x96x96, .i1⟩
  | 27 => ⟨S8x2x96x96x96, .f32⟩
  | 28 => ⟨S8x2x96x96x96, .f32⟩
  | 29 => ⟨S8x2x96x96x96, .f32⟩
  | 30 => ⟨S8x2x96x96x96, .f32⟩
  | 31 => ⟨S8x2x96x96x96, .f32⟩
  | 32 => ⟨S8x2x96x96x96, .f32⟩
  | 33 => ⟨S8x2x96x96x96, .f32⟩
  | 34 => ⟨S8x2x96x96x96, .f32⟩
  | 35 => ⟨S_, .f32⟩
  | 36 => ⟨S8x2x96x96x96, .f32⟩
  | 37 => ⟨S8x2x96x96x96, .f32⟩
  | 38 => ⟨S8x2x96x96x96, .f32⟩
  | 39 => ⟨S8x2x96x96x96, .f32⟩
  | 40 => ⟨S_, .f32⟩
  | 41 => ⟨S_, .f32⟩
  | 42 => ⟨S_, .f32⟩
  | 43 => ⟨S_, .f32⟩
  | 44 => ⟨S_, .f32⟩
  | 45 => ⟨S8x128x1, .i32⟩
  | 46 => ⟨S8x128, .i32⟩
  | 47 => ⟨S_, .i32⟩
  | 48 => ⟨S8x128, .i32⟩
  | 49 => ⟨S8x128, .i1⟩
  | 50 => ⟨S_, .i32⟩
  | 51 => ⟨S8x128x4, .i32⟩
  | 52 => ⟨S8x128x4, .i32⟩
  | 53 => ⟨S8, .i32⟩
  | 54 => ⟨S8x1, .i32⟩
  | 55 => ⟨S8x128x1, .i32⟩
  | 56 => ⟨S8x128, .i32⟩
  | 57 => ⟨S8x128x1, .i32⟩
  | 58 => ⟨S8x128, .i32⟩
  | 59 => ⟨S8x128x1, .i32⟩
  | 60 => ⟨S8x128, .i32⟩
  | 61 => ⟨S8x128x1, .i32⟩
  | 62 => ⟨S8x128, .i32⟩
  | 63 => ⟨S_, .i32⟩
  | 64 => ⟨S8x1, .i32⟩
  | 65 => ⟨S8x1, .i1⟩
  | 66 => ⟨S_, .i32⟩
  | 67 => ⟨S8x1, .i32⟩
  | 68 => ⟨S8x1, .i32⟩
  | 69 => ⟨S8x1, .i32⟩
  | 70 => ⟨S_, .i32⟩
  | 71 => ⟨S8x128, .i32⟩
  | 72 => ⟨S8x128, .i1⟩
  | 73 => ⟨S_, .i32⟩
  | 74 => ⟨S8x128, .i32⟩
  | 75 => ⟨S8x128, .i32⟩
  | 76 => ⟨S8x128, .i32⟩
  | 77 => ⟨S_, .i32⟩
  | 78 => ⟨S8x128, .i32⟩
  | 79 => ⟨S8x128, .i1⟩
  | 80 => ⟨S_, .i32⟩
  | 81 => ⟨S8x128, .i32⟩
  | 82 => ⟨S8x128, .i32⟩
  | 83 => ⟨S8x128, .i32⟩
  | 84 => ⟨S_, .i32⟩
  | 85 => ⟨S8x128, .i32⟩
  | 86 => ⟨S8x128, .i1⟩
  | 87 => ⟨S_, .i32⟩
  | 88 => ⟨S8x128, .i32⟩
  | 89 => ⟨S8x128, .i32⟩
  | 90 => ⟨S8x128, .i32⟩
  | 91 => ⟨S_, .i32⟩
  | 92 => ⟨S8x128, .i32⟩
  | 93 => ⟨S8x128, .i1⟩
  | 94 => ⟨S_, .i32⟩
  | 95 => ⟨S8x128, .i32⟩
  | 96 => ⟨S8x128, .i32⟩
  | 97 => ⟨S8x128, .i32⟩
  | 98 => ⟨S8x128, .i32⟩
  | 99 => ⟨S8x128x1, .i32⟩
  | 100 => ⟨S8x128x1, .i32⟩
  | 101 => ⟨S8x128x1, .i32⟩
  | 102 => ⟨S8x128x1, .i32⟩
  | 103 => ⟨S8x128x1, .i32⟩
  | 104 => ⟨S8x128x5, .i32⟩
  | 105 => ⟨S8x128, .f32⟩
  | 106 => ⟨S8x128, .f32⟩
  | 107 => ⟨S8x128, .f32⟩
  | 108 => ⟨S_, .f32⟩
  | 109 => ⟨S8x128, .f32⟩
  | 110 => ⟨S8x128, .f32⟩
  | 111 => ⟨S_, .f32⟩
  | 112 => ⟨S8x128, .f32⟩
  | 113 => ⟨S8x128, .f32⟩
  | 114 => ⟨S_, .f32⟩
  | 115 => ⟨S8x128, .f32⟩
  | 116 => ⟨S8x128, .f32⟩
  | 117 => ⟨S_, .f32⟩
  | 118 => ⟨S8x128, .f32⟩
  | 119 => ⟨S8x128, .f32⟩
  | 120 => ⟨S8x128, .f32⟩
  | 121 => ⟨S8x128, .f32⟩
  | 122 => ⟨S_, .f32⟩
  | 123 => ⟨S8, .f32⟩
  | 124 => ⟨S8x128, .f32⟩
  | 125 => ⟨S_, .f32⟩
  | 126 => ⟨S8x128, .f32⟩
  | 127 => ⟨S8x128, .f32⟩
  | _ => ⟨S8x2x96x96x96, .f32⟩

abbrev hbmTy0_1 (i : Nat) : BufTy := match i % 128 with
  | 0 => ⟨S8x128, .f32⟩
  | 1 => ⟨S8x128, .f32⟩
  | 2 => ⟨S8x128, .i1⟩
  | 3 => ⟨S8x128, .f32⟩
  | 4 => ⟨S8x128, .f32⟩
  | 5 => ⟨S8x128, .f32⟩
  | 6 => ⟨S8x128, .f32⟩
  | 7 => ⟨S8x128, .f32⟩
  | 8 => ⟨S8x128, .f32⟩
  | 9 => ⟨S8x128, .f32⟩
  | 10 => ⟨S8x128, .f32⟩
  | 11 => ⟨S8x128, .f32⟩
  | 12 => ⟨S8x128, .f32⟩
  | 13 => ⟨S_, .f32⟩
  | 14 => ⟨S8, .f32⟩
  | 15 => ⟨S_, .i1⟩
  | 16 => ⟨S8, .i1⟩
  | 17 => ⟨S8, .f32⟩
  | 18 => ⟨S_, .f32⟩
  | 19 => ⟨S8, .f32⟩
  | 20 => ⟨S8, .i1⟩
  | 21 => ⟨S_, .f32⟩
  | 22 => ⟨S_, .f32⟩
  | 23 => ⟨S8, .f32⟩
  | 24 => ⟨S8, .f32⟩
  | 25 => ⟨S8, .f32⟩
  | 26 => ⟨S_, .f32⟩
  | 27 => ⟨S_, .f32⟩
  | 28 => ⟨S8, .f32⟩
  | 29 => ⟨S8, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S8x2x48x48x48, .f32⟩
  | 37 => ⟨S8x2x48x48x48, .f32⟩
  | 38 => ⟨S_, .f32⟩
  | 39 => ⟨S8x2x48x48x48, .f32⟩
  | 40 => ⟨S8x2x48x48x48, .f32⟩
  | 41 => ⟨S_, .f32⟩
  | 42 => ⟨S8x2x48x48x48, .f32⟩
  | 43 => ⟨S8x2x48x48x48, .f32⟩
  | 44 => ⟨S_, .f32⟩
  | 45 => ⟨S8x2x48x48x48, .f32⟩
  | 46 => ⟨S8x2x48x48x48, .i1⟩
  | 47 => ⟨S8x2x48x48x48, .f32⟩
  | 48 => ⟨S_, .f32⟩
  | 49 => ⟨S8x2x48x48x48, .f32⟩
  | 50 => ⟨S8x2x48x48x48, .f32⟩
  | 51 => ⟨S8x2x48x48x48, .f32⟩
  | 52 => ⟨S8x2x48x48x48, .f32⟩
  | 53 => ⟨S8x2x48x48x48, .i1⟩
  | 54 => ⟨S8x2x48x48x48, .f32⟩
  | 55 => ⟨S8x2x48x48x48, .f32⟩
  | 56 => ⟨S8x2x48x48x48, .f32⟩
  | 57 => ⟨S8x2x48x48x48, .f32⟩
  | 58 => ⟨S8x2x48x48x48, .f32⟩
  | 59 => ⟨S8x2x48x48x48, .f32⟩
  | 60 => ⟨S8x2x48x48x48, .f32⟩
  | 61 => ⟨S8x2x48x48x48, .f32⟩
  | 62 => ⟨S_, .f32⟩
  | 63 => ⟨S8x2x48x48x48, .f32⟩
  | 64 => ⟨S8x2x48x48x48, .f32⟩
  | 65 => ⟨S8x2x48x48x48, .f32⟩
  | 66 => ⟨S8x2x48x48x48, .f32⟩
  | 67 => ⟨S_, .f32⟩
  | 68 => ⟨S_, .f32⟩
  | 69 => ⟨S_, .f32⟩
  | 70 => ⟨S_, .f32⟩
  | 71 => ⟨S_, .f32⟩
  | 72 => ⟨S8x128x1, .i32⟩
  | 73 => ⟨S8x128, .i32⟩
  | 74 => ⟨S_, .i32⟩
  | 75 => ⟨S8x128, .i32⟩
  | 76 => ⟨S8x128, .i1⟩
  | 77 => ⟨S_, .i32⟩
  | 78 => ⟨S8x128x4, .i32⟩
  | 79 => ⟨S8x128x4, .i32⟩
  | 80 => ⟨S8, .i32⟩
  | 81 => ⟨S8x1, .i32⟩
  | 82 => ⟨S8x128x1, .i32⟩
  | 83 => ⟨S8x128, .i32⟩
  | 84 => ⟨S8x128x1, .i32⟩
  | 85 => ⟨S8x128, .i32⟩
  | 86 => ⟨S8x128x1, .i32⟩
  | 87 => ⟨S8x128, .i32⟩
  | 88 => ⟨S8x128x1, .i32⟩
  | 89 => ⟨S8x128, .i32⟩
  | 90 => ⟨S_, .i32⟩
  | 91 => ⟨S8x1, .i32⟩
  | 92 => ⟨S8x1, .i1⟩
  | 93 => ⟨S_, .i32⟩
  | 94 => ⟨S8x1, .i32⟩
  | 95 => ⟨S8x1, .i32⟩
  | 96 => ⟨S8x1, .i32⟩
  | 97 => ⟨S_, .i32⟩
  | 98 => ⟨S8x128, .i32⟩
  | 99 => ⟨S8x128, .i1⟩
  | 100 => ⟨S_, .i32⟩
  | 101 => ⟨S8x128, .i32⟩
  | 102 => ⟨S8x128, .i32⟩
  | 103 => ⟨S8x128, .i32⟩
  | 104 => ⟨S_, .i32⟩
  | 105 => ⟨S8x128, .i32⟩
  | 106 => ⟨S8x128, .i1⟩
  | 107 => ⟨S_, .i32⟩
  | 108 => ⟨S8x128, .i32⟩
  | 109 => ⟨S8x128, .i32⟩
  | 110 => ⟨S8x128, .i32⟩
  | 111 => ⟨S_, .i32⟩
  | 112 => ⟨S8x128, .i32⟩
  | 113 => ⟨S8x128, .i1⟩
  | 114 => ⟨S_, .i32⟩
  | 115 => ⟨S8x128, .i32⟩
  | 116 => ⟨S8x128, .i32⟩
  | 117 => ⟨S8x128, .i32⟩
  | 118 => ⟨S_, .i32⟩
  | 119 => ⟨S8x128, .i32⟩
  | 120 => ⟨S8x128, .i1⟩
  | 121 => ⟨S_, .i32⟩
  | 122 => ⟨S8x128, .i32⟩
  | 123 => ⟨S8x128, .i32⟩
  | 124 => ⟨S8x128, .i32⟩
  | 125 => ⟨S8x128, .i32⟩
  | 126 => ⟨S8x128x1, .i32⟩
  | 127 => ⟨S8x128x1, .i32⟩
  | _ => ⟨S8x2x96x96x96, .f32⟩

abbrev hbmTy0_2 (i : Nat) : BufTy := match i % 128 with
  | 0 => ⟨S8x128x1, .i32⟩
  | 1 => ⟨S8x128x1, .i32⟩
  | 2 => ⟨S8x128x1, .i32⟩
  | 3 => ⟨S8x128x5, .i32⟩
  | 4 => ⟨S8x128, .f32⟩
  | 5 => ⟨S8x128, .f32⟩
  | 6 => ⟨S8x128, .f32⟩
  | 7 => ⟨S_, .f32⟩
  | 8 => ⟨S8x128, .f32⟩
  | 9 => ⟨S8x128, .f32⟩
  | 10 => ⟨S_, .f32⟩
  | 11 => ⟨S8x128, .f32⟩
  | 12 => ⟨S8x128, .f32⟩
  | 13 => ⟨S_, .f32⟩
  | 14 => ⟨S8x128, .f32⟩
  | 15 => ⟨S8x128, .f32⟩
  | 16 => ⟨S_, .f32⟩
  | 17 => ⟨S8x128, .f32⟩
  | 18 => ⟨S8x128, .f32⟩
  | 19 => ⟨S8x128, .f32⟩
  | 20 => ⟨S8x128, .f32⟩
  | 21 => ⟨S_, .f32⟩
  | 22 => ⟨S8, .f32⟩
  | 23 => ⟨S8x128, .f32⟩
  | 24 => ⟨S_, .f32⟩
  | 25 => ⟨S8x128, .f32⟩
  | 26 => ⟨S8x128, .f32⟩
  | 27 => ⟨S8x128, .f32⟩
  | 28 => ⟨S8x128, .f32⟩
  | 29 => ⟨S8x128, .i1⟩
  | 30 => ⟨S8x128, .f32⟩
  | 31 => ⟨S8x128, .f32⟩
  | 32 => ⟨S8x128, .f32⟩
  | 33 => ⟨S8x128, .f32⟩
  | 34 => ⟨S8x128, .f32⟩
  | 35 => ⟨S8x128, .f32⟩
  | 36 => ⟨S8x128, .f32⟩
  | 37 => ⟨S8x128, .f32⟩
  | 38 => ⟨S8x128, .f32⟩
  | 39 => ⟨S8x128, .f32⟩
  | 40 => ⟨S_, .f32⟩
  | 41 => ⟨S8, .f32⟩
  | 42 => ⟨S_, .i1⟩
  | 43 => ⟨S8, .i1⟩
  | 44 => ⟨S8, .f32⟩
  | 45 => ⟨S_, .f32⟩
  | 46 => ⟨S8, .f32⟩
  | 47 => ⟨S8, .i1⟩
  | 48 => ⟨S_, .f32⟩
  | 49 => ⟨S_, .f32⟩
  | 50 => ⟨S8, .f32⟩
  | 51 => ⟨S8, .f32⟩
  | 52 => ⟨S8, .f32⟩
  | 53 => ⟨S_, .f32⟩
  | 54 => ⟨S_, .f32⟩
  | 55 => ⟨S8, .f32⟩
  | 56 => ⟨S8, .f32⟩
  | 57 => ⟨S_, .f32⟩
  | 58 => ⟨S_, .f32⟩
  | 59 => ⟨S_, .f32⟩
  | 60 => ⟨S_, .f32⟩
  | 61 => ⟨S8x2x24x24x24, .f32⟩
  | 62 => ⟨S8x2x24x24x24, .f32⟩
  | 63 => ⟨S_, .f32⟩
  | 64 => ⟨S8x2x24x24x24, .f32⟩
  | 65 => ⟨S8x2x24x24x24, .f32⟩
  | 66 => ⟨S_, .f32⟩
  | 67 => ⟨S8x2x24x24x24, .f32⟩
  | 68 => ⟨S8x2x24x24x24, .f32⟩
  | 69 => ⟨S_, .f32⟩
  | 70 => ⟨S8x2x24x24x24, .f32⟩
  | 71 => ⟨S8x2x24x24x24, .i1⟩
  | 72 => ⟨S8x2x24x24x24, .f32⟩
  | 73 => ⟨S_, .f32⟩
  | 74 => ⟨S8x2x24x24x24, .f32⟩
  | 75 => ⟨S8x2x24x24x24, .f32⟩
  | 76 => ⟨S8x2x24x24x24, .f32⟩
  | 77 => ⟨S8x2x24x24x24, .f32⟩
  | 78 => ⟨S8x2x24x24x24, .i1⟩
  | 79 => ⟨S8x2x24x24x24, .f32⟩
  | 80 => ⟨S8x2x24x24x24, .f32⟩
  | 81 => ⟨S8x2x24x24x24, .f32⟩
  | 82 => ⟨S8x2x24x24x24, .f32⟩
  | 83 => ⟨S8x2x24x24x24, .f32⟩
  | 84 => ⟨S8x2x24x24x24, .f32⟩
  | 85 => ⟨S8x2x24x24x24, .f32⟩
  | 86 => ⟨S8x2x24x24x24, .f32⟩
  | 87 => ⟨S_, .f32⟩
  | 88 => ⟨S8x2x24x24x24, .f32⟩
  | 89 => ⟨S8x2x24x24x24, .f32⟩
  | 90 => ⟨S8x2x24x24x24, .f32⟩
  | 91 => ⟨S8x2x24x24x24, .f32⟩
  | 92 => ⟨S_, .f32⟩
  | 93 => ⟨S_, .f32⟩
  | 94 => ⟨S_, .f32⟩
  | 95 => ⟨S_, .f32⟩
  | 96 => ⟨S_, .f32⟩
  | 97 => ⟨S8x128x1, .i32⟩
  | 98 => ⟨S8x128, .i32⟩
  | 99 => ⟨S_, .i32⟩
  | 100 => ⟨S8x128, .i32⟩
  | 101 => ⟨S8x128, .i1⟩
  | 102 => ⟨S_, .i32⟩
  | 103 => ⟨S8x128x4, .i32⟩
  | 104 => ⟨S8x128x4, .i32⟩
  | 105 => ⟨S8, .i32⟩
  | 106 => ⟨S8x1, .i32⟩
  | 107 => ⟨S8x128x1, .i32⟩
  | 108 => ⟨S8x128, .i32⟩
  | 109 => ⟨S8x128x1, .i32⟩
  | 110 => ⟨S8x128, .i32⟩
  | 111 => ⟨S8x128x1, .i32⟩
  | 112 => ⟨S8x128, .i32⟩
  | 113 => ⟨S8x128x1, .i32⟩
  | 114 => ⟨S8x128, .i32⟩
  | 115 => ⟨S_, .i32⟩
  | 116 => ⟨S8x1, .i32⟩
  | 117 => ⟨S8x1, .i1⟩
  | 118 => ⟨S_, .i32⟩
  | 119 => ⟨S8x1, .i32⟩
  | 120 => ⟨S8x1, .i32⟩
  | 121 => ⟨S8x1, .i32⟩
  | 122 => ⟨S_, .i32⟩
  | 123 => ⟨S8x128, .i32⟩
  | 124 => ⟨S8x128, .i1⟩
  | 125 => ⟨S_, .i32⟩
  | 126 => ⟨S8x128, .i32⟩
  | 127 => ⟨S8x128, .i32⟩
  | _ => ⟨S8x2x96x96x96, .f32⟩

abbrev hbmTy0_3 (i : Nat) : BufTy := match i % 128 with
  | 0 => ⟨S8x128, .i32⟩
  | 1 => ⟨S_, .i32⟩
  | 2 => ⟨S8x128, .i32⟩
  | 3 => ⟨S8x128, .i1⟩
  | 4 => ⟨S_, .i32⟩
  | 5 => ⟨S8x128, .i32⟩
  | 6 => ⟨S8x128, .i32⟩
  | 7 => ⟨S8x128, .i32⟩
  | 8 => ⟨S_, .i32⟩
  | 9 => ⟨S8x128, .i32⟩
  | 10 => ⟨S8x128, .i1⟩
  | 11 => ⟨S_, .i32⟩
  | 12 => ⟨S8x128, .i32⟩
  | 13 => ⟨S8x128, .i32⟩
  | 14 => ⟨S8x128, .i32⟩
  | 15 => ⟨S_, .i32⟩
  | 16 => ⟨S8x128, .i32⟩
  | 17 => ⟨S8x128, .i1⟩
  | 18 => ⟨S_, .i32⟩
  | 19 => ⟨S8x128, .i32⟩
  | 20 => ⟨S8x128, .i32⟩
  | 21 => ⟨S8x128, .i32⟩
  | 22 => ⟨S8x128, .i32⟩
  | 23 => ⟨S8x128x1, .i32⟩
  | 24 => ⟨S8x128x1, .i32⟩
  | 25 => ⟨S8x128x1, .i32⟩
  | 26 => ⟨S8x128x1, .i32⟩
  | 27 => ⟨S8x128x1, .i32⟩
  | 28 => ⟨S8x128x5, .i32⟩
  | 29 => ⟨S8x128, .f32⟩
  | 30 => ⟨S8x128, .f32⟩
  | 31 => ⟨S8x128, .f32⟩
  | 32 => ⟨S_, .f32⟩
  | 33 => ⟨S8x128, .f32⟩
  | 34 => ⟨S8x128, .f32⟩
  | 35 => ⟨S_, .f32⟩
  | 36 => ⟨S8x128, .f32⟩
  | 37 => ⟨S8x128, .f32⟩
  | 38 => ⟨S_, .f32⟩
  | 39 => ⟨S8x128, .f32⟩
  | 40 => ⟨S8x128, .f32⟩
  | 41 => ⟨S_, .f32⟩
  | 42 => ⟨S8x128, .f32⟩
  | 43 => ⟨S8x128, .f32⟩
  | 44 => ⟨S8x128, .f32⟩
  | 45 => ⟨S8x128, .f32⟩
  | 46 => ⟨S_, .f32⟩
  | 47 => ⟨S8, .f32⟩
  | 48 => ⟨S8x128, .f32⟩
  | 49 => ⟨S_, .f32⟩
  | 50 => ⟨S8x128, .f32⟩
  | 51 => ⟨S8x128, .f32⟩
  | 52 => ⟨S8x128, .f32⟩
  | 53 => ⟨S8x128, .f32⟩
  | 54 => ⟨S8x128, .i1⟩
  | 55 => ⟨S8x128, .f32⟩
  | 56 => ⟨S8x128, .f32⟩
  | 57 => ⟨S8x128, .f32⟩
  | 58 => ⟨S8x128, .f32⟩
  | 59 => ⟨S8x128, .f32⟩
  | 60 => ⟨S8x128, .f32⟩
  | 61 => ⟨S8x128, .f32⟩
  | 62 => ⟨S8x128, .f32⟩
  | 63 => ⟨S8x128, .f32⟩
  | 64 => ⟨S8x128, .f32⟩
  | 65 => ⟨S_, .f32⟩
  | 66 => ⟨S8, .f32⟩
  | 67 => ⟨S_, .i1⟩
  | 68 => ⟨S8, .i1⟩
  | 69 => ⟨S8, .f32⟩
  | 70 => ⟨S_, .f32⟩
  | 71 => ⟨S8, .f32⟩
  | 72 => ⟨S8, .i1⟩
  | 73 => ⟨S_, .f32⟩
  | 74 => ⟨S_, .f32⟩
  | 75 => ⟨S8, .f32⟩
  | 76 => ⟨S8, .f32⟩
  | 77 => ⟨S8, .f32⟩
  | 78 => ⟨S_, .f32⟩
  | 79 => ⟨S_, .f32⟩
  | 80 => ⟨S8, .f32⟩
  | 81 => ⟨S8, .f32⟩
  | 82 => ⟨S_, .f32⟩
  | 83 => ⟨S_, .f32⟩
  | 84 => ⟨S_, .f32⟩
  | 85 => ⟨S_, .f32⟩
  | 86 => ⟨S1, .f32⟩
  | 87 => ⟨S1, .f32⟩
  | 88 => ⟨S2, .f32⟩
  | 89 => ⟨S_, .f32⟩
  | 90 => ⟨S2, .f32⟩
  | _ => ⟨S8x2x96x96x96, .f32⟩

abbrev hbmTy (i : Nat) : BufTy := match i / 128 with
  | 0 => hbmTy0_0 i
  | 1 => hbmTy0_1 i
  | 2 => hbmTy0_2 i
  | 3 => hbmTy0_3 i
  | _ => ⟨S8x2x96x96x96, .f32⟩

abbrev bufTy : (tb : Table) → Fin (tcTables nBuf tb) → BufTy
  | .hbm, ⟨i, _⟩ => hbmTy i
  | _, _ => ⟨S8x2x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_3 : Ref sig .tc := ⟨.hbm, 40, rfl⟩
abbrev main_v14 : Ref sig .tc := ⟨.hbm, 41, rfl⟩
abbrev main_cst_4 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c : Ref sig .tc := ⟨.hbm, 47, rfl⟩
abbrev main_v19 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_6 : Ref sig .tc := ⟨.hbm, 63, rfl⟩
abbrev main_v33 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_c_9 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_10 : Ref sig .tc := ⟨.hbm, 77, rfl⟩
abbrev main_v43 : Ref sig .tc := ⟨.hbm, 78, rfl⟩
abbrev main_v44 : Ref sig .tc := ⟨.hbm, 79, rfl⟩
abbrev main_c_11 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_12 : Ref sig .tc := ⟨.hbm, 84, rfl⟩
abbrev main_v48 : Ref sig .tc := ⟨.hbm, 85, rfl⟩
abbrev main_v49 : Ref sig .tc := ⟨.hbm, 86, rfl⟩
abbrev main_c_13 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_c_14 : Ref sig .tc := ⟨.hbm, 91, rfl⟩
abbrev main_v53 : Ref sig .tc := ⟨.hbm, 92, rfl⟩
abbrev main_v54 : Ref sig .tc := ⟨.hbm, 93, rfl⟩
abbrev main_c_15 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_16 : Ref sig .tc := ⟨.hbm, 108, rfl⟩
abbrev main_v68 : Ref sig .tc := ⟨.hbm, 109, rfl⟩
abbrev main_v69 : Ref sig .tc := ⟨.hbm, 110, rfl⟩
abbrev main_cst_17 : Ref sig .tc := ⟨.hbm, 111, rfl⟩
abbrev main_v70 : Ref sig .tc := ⟨.hbm, 112, rfl⟩
abbrev main_v71 : Ref sig .tc := ⟨.hbm, 113, rfl⟩
abbrev main_cst_18 : Ref sig .tc := ⟨.hbm, 114, rfl⟩
abbrev main_v72 : Ref sig .tc := ⟨.hbm, 115, rfl⟩
abbrev main_v73 : Ref sig .tc := ⟨.hbm, 116, rfl⟩
abbrev main_cst_19 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_20 : Ref sig .tc := ⟨.hbm, 122, rfl⟩
abbrev main_v78 : Ref sig .tc := ⟨.hbm, 123, rfl⟩
abbrev main_call1_v0 : Ref sig .tc := ⟨.hbm, 124, rfl⟩
abbrev main_call1_call0_cst : Ref sig .tc := ⟨.hbm, 125, rfl⟩
abbrev main_call1_call0_v0 : Ref sig .tc := ⟨.hbm, 126, rfl⟩
abbrev main_call1_call0_v1 : Ref sig .tc := ⟨.hbm, 127, rfl⟩
abbrev main_call1_call0_v2 : Ref sig .tc := ⟨.hbm, 128, rfl⟩
abbrev main_call1_call0_v3 : Ref sig .tc := ⟨.hbm, 129, rfl⟩
abbrev main_call1_call0_v4 : Ref sig .tc := ⟨.hbm, 130, rfl⟩
abbrev main_call1_call0_v5 : Ref sig .tc := ⟨.hbm, 131, rfl⟩
abbrev main_call1_call0_v6 : Ref sig .tc := ⟨.hbm, 132, rfl⟩
abbrev main_call1_call0_v7 : Ref sig .tc := ⟨.hbm, 133, rfl⟩
abbrev main_call1_call0_v8 : Ref sig .tc := ⟨.hbm, 134, rfl⟩
abbrev main_call1_call0_v9 : Ref sig .tc := ⟨.hbm, 135, rfl⟩
abbrev main_call1_call0_v10 : Ref sig .tc := ⟨.hbm, 136, rfl⟩
abbrev main_call1_call0_v11 : Ref sig .tc := ⟨.hbm, 137, rfl⟩
abbrev main_call1_v1 : Ref sig .tc := ⟨.hbm, 138, rfl⟩
abbrev main_v79 : Ref sig .tc := ⟨.hbm, 139, rfl⟩
abbrev main_v80 : Ref sig .tc := ⟨.hbm, 140, rfl⟩
abbrev main_cst_21 : Ref sig .tc := ⟨.hbm, 141, rfl⟩
abbrev main_v81 : Ref sig .tc := ⟨.hbm, 142, rfl⟩
abbrev main_c_22 : Ref sig .tc := ⟨.hbm, 143, rfl⟩
abbrev main_v82 : Ref sig .tc := ⟨.hbm, 144, rfl⟩
abbrev main_v83 : Ref sig .tc := ⟨.hbm, 145, rfl⟩
abbrev main_cst_23 : Ref sig .tc := ⟨.hbm, 146, rfl⟩
abbrev main_v84 : Ref sig .tc := ⟨.hbm, 147, rfl⟩
abbrev main_v85 : Ref sig .tc := ⟨.hbm, 148, rfl⟩
abbrev main_cst_24 : Ref sig .tc := ⟨.hbm, 149, rfl⟩
abbrev main_call2_v0 : Ref sig .tc := ⟨.hbm, 150, rfl⟩
abbrev main_call2_v1 : Ref sig .tc := ⟨.hbm, 151, rfl⟩
abbrev main_v86 : Ref sig .tc := ⟨.hbm, 152, rfl⟩
abbrev main_v87 : Ref sig .tc := ⟨.hbm, 153, rfl⟩
abbrev main_cst_25 : Ref sig .tc := ⟨.hbm, 154, rfl⟩
abbrev main_call3_v0 : Ref sig .tc := ⟨.hbm, 155, rfl⟩
abbrev main_call3_v1 : Ref sig .tc := ⟨.hbm, 156, rfl⟩
abbrev main_v88 : Ref sig .tc := ⟨.hbm, 157, rfl⟩
abbrev main_cst_26 : Ref sig .tc := ⟨.hbm, 158, rfl⟩
abbrev main_v89 : Ref sig .tc := ⟨.hbm, 159, rfl⟩
abbrev main_cst_27 : Ref sig .tc := ⟨.hbm, 160, rfl⟩
abbrev main_v90 : Ref sig .tc := ⟨.hbm, 161, rfl⟩
abbrev main_cst_28 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_cst_29 : Ref sig .tc := ⟨.hbm, 166, rfl⟩
abbrev main_v94 : Ref sig .tc := ⟨.hbm, 167, rfl⟩
abbrev main_v95 : Ref sig .tc := ⟨.hbm, 168, rfl⟩
abbrev main_cst_30 : Ref sig .tc := ⟨.hbm, 169, rfl⟩
abbrev main_v96 : Ref sig .tc := ⟨.hbm, 170, rfl⟩
abbrev main_v97 : Ref sig .tc := ⟨.hbm, 171, rfl⟩
abbrev main_cst_31 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_call4_cst : Ref sig .tc := ⟨.hbm, 176, rfl⟩
abbrev main_call4_v0 : Ref sig .tc := ⟨.hbm, 177, rfl⟩
abbrev main_call4_v1 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_v6 : Ref sig .tc := ⟨.hbm, 183, rfl⟩
abbrev main_call4_v7 : Ref sig .tc := ⟨.hbm, 184, rfl⟩
abbrev main_call4_v8 : Ref sig .tc := ⟨.hbm, 185, rfl⟩
abbrev main_call4_v9 : Ref sig .tc := ⟨.hbm, 186, rfl⟩
abbrev main_call4_v10 : Ref sig .tc := ⟨.hbm, 187, rfl⟩
abbrev main_call4_v11 : Ref sig .tc := ⟨.hbm, 188, rfl⟩
abbrev main_v101 : Ref sig .tc := ⟨.hbm, 189, rfl⟩
abbrev main_cst_32 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_cst_33 : Ref sig .tc := ⟨.hbm, 195, rfl⟩
abbrev main_v106 : Ref sig .tc := ⟨.hbm, 196, rfl⟩
abbrev main_cst_34 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_c_35 : Ref sig .tc := ⟨.hbm, 202, rfl⟩
abbrev main_v111 : Ref sig .tc := ⟨.hbm, 203, rfl⟩
abbrev main_v112 : Ref sig .tc := ⟨.hbm, 204, rfl⟩
abbrev main_c_36 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_c_37 : Ref sig .tc := ⟨.hbm, 218, rfl⟩
abbrev main_v125 : Ref sig .tc := ⟨.hbm, 219, rfl⟩
abbrev main_v126 : Ref sig .tc := ⟨.hbm, 220, rfl⟩
abbrev main_c_38 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_c_39 : Ref sig .tc := ⟨.hbm, 225, rfl⟩
abbrev main_v130 : Ref sig .tc := ⟨.hbm, 226, rfl⟩
abbrev main_v131 : Ref sig .tc := ⟨.hbm, 227, rfl⟩
abbrev main_c_40 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_c_41 : Ref sig .tc := ⟨.hbm, 232, rfl⟩
abbrev main_v135 : Ref sig .tc := ⟨.hbm, 233, rfl⟩
abbrev main_v136 : Ref sig .tc := ⟨.hbm, 234, rfl⟩
abbrev main_c_42 : Ref sig .tc := ⟨.hbm, 235, rfl⟩
abbrev main_v137 : Ref sig .tc := ⟨.hbm, 236, rfl⟩
abbrev main_v138 : Ref sig .tc := ⟨.hbm, 237, rfl⟩
abbrev main_v139 : Ref sig .tc := ⟨.hbm, 238, rfl⟩
abbrev main_c_43 : Ref sig .tc := ⟨.hbm, 239, rfl⟩
abbrev main_v140 : Ref sig .tc := ⟨.hbm, 240, rfl⟩
abbrev main_v141 : Ref sig .tc := ⟨.hbm, 241, rfl⟩
abbrev main_c_44 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_c_45 : Ref sig .tc := ⟨.hbm, 246, rfl⟩
abbrev main_v145 : Ref sig .tc := ⟨.hbm, 247, rfl⟩
abbrev main_v146 : Ref sig .tc := ⟨.hbm, 248, rfl⟩
abbrev main_c_46 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_cst_47 : Ref sig .tc := ⟨.hbm, 263, rfl⟩
abbrev main_v160 : Ref sig .tc := ⟨.hbm, 264, rfl⟩
abbrev main_v161 : Ref sig .tc := ⟨.hbm, 265, rfl⟩
abbrev main_cst_48 : Ref sig .tc := ⟨.hbm, 266, rfl⟩
abbrev main_v162 : Ref sig .tc := ⟨.hbm, 267, rfl⟩
abbrev main_v163 : Ref sig .tc := ⟨.hbm, 268, rfl⟩
abbrev main_cst_49 : Ref sig .tc := ⟨.hbm, 269, rfl⟩
abbrev main_v164 : Ref sig .tc := ⟨.hbm, 270, rfl⟩
abbrev main_v165 : Ref sig .tc := ⟨.hbm, 271, rfl⟩
abbrev main_cst_50 : Ref sig .tc := ⟨.hbm, 272, rfl⟩
abbrev main_v166 : Ref sig .tc := ⟨.hbm, 273, rfl⟩
abbrev main_v167 : Ref sig .tc := ⟨.hbm, 274, rfl⟩
abbrev main_v168 : Ref sig .tc := ⟨.hbm, 275, rfl⟩
abbrev main_v169 : Ref sig .tc := ⟨.hbm, 276, rfl⟩
abbrev main_cst_51 : Ref sig .tc := ⟨.hbm, 277, rfl⟩
abbrev main_v170 : Ref sig .tc := ⟨.hbm, 278, rfl⟩
abbrev main_call5_v0 : Ref sig .tc := ⟨.hbm, 279, rfl⟩
abbrev main_call5_call0_cst : Ref sig .tc := ⟨.hbm, 280, rfl⟩
abbrev main_call5_call0_v0 : Ref sig .tc := ⟨.hbm, 281, rfl⟩
abbrev main_call5_call0_v1 : Ref sig .tc := ⟨.hbm, 282, rfl⟩
abbrev main_call5_call0_v2 : Ref sig .tc := ⟨.hbm, 283, rfl⟩
abbrev main_call5_call0_v3 : Ref sig .tc := ⟨.hbm, 284, rfl⟩
abbrev main_call5_call0_v4 : Ref sig .tc := ⟨.hbm, 285, rfl⟩
abbrev main_call5_call0_v5 : Ref sig .tc := ⟨.hbm, 286, rfl⟩
abbrev main_call5_call0_v6 : Ref sig .tc := ⟨.hbm, 287, rfl⟩
abbrev main_call5_call0_v7 : Ref sig .tc := ⟨.hbm, 288, rfl⟩
abbrev main_call5_call0_v8 : Ref sig .tc := ⟨.hbm, 289, rfl⟩
abbrev main_call5_call0_v9 : Ref sig .tc := ⟨.hbm, 290, rfl⟩
abbrev main_call5_call0_v10 : Ref sig .tc := ⟨.hbm, 291, rfl⟩
abbrev main_call5_call0_v11 : Ref sig .tc := ⟨.hbm, 292, rfl⟩
abbrev main_call5_v1 : Ref sig .tc := ⟨.hbm, 293, rfl⟩
abbrev main_v171 : Ref sig .tc := ⟨.hbm, 294, rfl⟩
abbrev main_v172 : Ref sig .tc := ⟨.hbm, 295, rfl⟩
abbrev main_cst_52 : Ref sig .tc := ⟨.hbm, 296, rfl⟩
abbrev main_v173 : Ref sig .tc := ⟨.hbm, 297, rfl⟩
abbrev main_c_53 : Ref sig .tc := ⟨.hbm, 298, rfl⟩
abbrev main_v174 : Ref sig .tc := ⟨.hbm, 299, rfl⟩
abbrev main_v175 : Ref sig .tc := ⟨.hbm, 300, rfl⟩
abbrev main_cst_54 : Ref sig .tc := ⟨.hbm, 301, rfl⟩
abbrev main_v176 : Ref sig .tc := ⟨.hbm, 302, rfl⟩
abbrev main_v177 : Ref sig .tc := ⟨.hbm, 303, rfl⟩
abbrev main_cst_55 : Ref sig .tc := ⟨.hbm, 304, rfl⟩
abbrev main_call6_v0 : Ref sig .tc := ⟨.hbm, 305, rfl⟩
abbrev main_call6_v1 : Ref sig .tc := ⟨.hbm, 306, rfl⟩
abbrev main_v178 : Ref sig .tc := ⟨.hbm, 307, rfl⟩
abbrev main_v179 : Ref sig .tc := ⟨.hbm, 308, rfl⟩
abbrev main_cst_56 : Ref sig .tc := ⟨.hbm, 309, rfl⟩
abbrev main_call7_v0 : Ref sig .tc := ⟨.hbm, 310, rfl⟩
abbrev main_call7_v1 : Ref sig .tc := ⟨.hbm, 311, rfl⟩
abbrev main_v180 : Ref sig .tc := ⟨.hbm, 312, rfl⟩
abbrev main_cst_57 : Ref sig .tc := ⟨.hbm, 313, rfl⟩
abbrev main_v181 : Ref sig .tc := ⟨.hbm, 314, rfl⟩
abbrev main_v182 : Ref sig .tc := ⟨.hbm, 315, rfl⟩
abbrev main_v183 : Ref sig .tc := ⟨.hbm, 316, rfl⟩
abbrev main_v184 : Ref sig .tc := ⟨.hbm, 317, rfl⟩
abbrev main_v185 : Ref sig .tc := ⟨.hbm, 318, rfl⟩
abbrev main_cst_58 : Ref sig .tc := ⟨.hbm, 319, rfl⟩
abbrev main_v186 : Ref sig .tc := ⟨.hbm, 320, rfl⟩
abbrev main_v187 : Ref sig .tc := ⟨.hbm, 321, rfl⟩
abbrev main_cst_59 : Ref sig .tc := ⟨.hbm, 322, rfl⟩
abbrev main_v188 : Ref sig .tc := ⟨.hbm, 323, rfl⟩
abbrev main_v189 : Ref sig .tc := ⟨.hbm, 324, rfl⟩
abbrev main_cst_60 : Ref sig .tc := ⟨.hbm, 325, rfl⟩
abbrev main_v190 : Ref sig .tc := ⟨.hbm, 326, rfl⟩
abbrev main_v191 : Ref sig .tc := ⟨.hbm, 327, rfl⟩
abbrev main_v192 : Ref sig .tc := ⟨.hbm, 328, rfl⟩
abbrev main_call8_cst : Ref sig .tc := ⟨.hbm, 329, rfl⟩
abbrev main_call8_v0 : Ref sig .tc := ⟨.hbm, 330, rfl⟩
abbrev main_call8_v1 : Ref sig .tc := ⟨.hbm, 331, rfl⟩
abbrev main_call8_v2 : Ref sig .tc := ⟨.hbm, 332, rfl⟩
abbrev main_call8_v3 : Ref sig .tc := ⟨.hbm, 333, rfl⟩
abbrev main_call8_v4 : Ref sig .tc := ⟨.hbm, 334, rfl⟩
abbrev main_call8_v5 : Ref sig .tc := ⟨.hbm, 335, rfl⟩
abbrev main_call8_v6 : Ref sig .tc := ⟨.hbm, 336, rfl⟩
abbrev main_call8_v7 : Ref sig .tc := ⟨.hbm, 337, rfl⟩
abbrev main_call8_v8 : Ref sig .tc := ⟨.hbm, 338, rfl⟩
abbrev main_call8_v9 : Ref sig .tc := ⟨.hbm, 339, rfl⟩
abbrev main_call8_v10 : Ref sig .tc := ⟨.hbm, 340, rfl⟩
abbrev main_call8_v11 : Ref sig .tc := ⟨.hbm, 341, rfl⟩
abbrev main_v193 : Ref sig .tc := ⟨.hbm, 342, rfl⟩
abbrev main_cst_61 : Ref sig .tc := ⟨.hbm, 343, rfl⟩
abbrev main_v194 : Ref sig .tc := ⟨.hbm, 344, rfl⟩
abbrev main_v195 : Ref sig .tc := ⟨.hbm, 345, rfl⟩
abbrev main_v196 : Ref sig .tc := ⟨.hbm, 346, rfl⟩
abbrev main_v197 : Ref sig .tc := ⟨.hbm, 347, rfl⟩
abbrev main_cst_62 : Ref sig .tc := ⟨.hbm, 348, rfl⟩
abbrev main_v198 : Ref sig .tc := ⟨.hbm, 349, rfl⟩
abbrev main_cst_63 : Ref sig .tc := ⟨.hbm, 350, rfl⟩
abbrev main_v199 : Ref sig .tc := ⟨.hbm, 351, rfl⟩
abbrev main_v200 : Ref sig .tc := ⟨.hbm, 352, rfl⟩
abbrev main_v201 : Ref sig .tc := ⟨.hbm, 353, rfl⟩
abbrev main_v202 : Ref sig .tc := ⟨.hbm, 354, rfl⟩
abbrev main_c_64 : Ref sig .tc := ⟨.hbm, 355, rfl⟩
abbrev main_v203 : Ref sig .tc := ⟨.hbm, 356, rfl⟩
abbrev main_v204 : Ref sig .tc := ⟨.hbm, 357, rfl⟩
abbrev main_c_65 : Ref sig .tc := ⟨.hbm, 358, rfl⟩
abbrev main_v205 : Ref sig .tc := ⟨.hbm, 359, rfl⟩
abbrev main_v206 : Ref sig .tc := ⟨.hbm, 360, rfl⟩
abbrev main_v207 : Ref sig .tc := ⟨.hbm, 361, rfl⟩
abbrev main_v208 : Ref sig .tc := ⟨.hbm, 362, rfl⟩
abbrev main_v209 : Ref sig .tc := ⟨.hbm, 363, rfl⟩
abbrev main_v210 : Ref sig .tc := ⟨.hbm, 364, rfl⟩
abbrev main_v211 : Ref sig .tc := ⟨.hbm, 365, rfl⟩
abbrev main_v212 : Ref sig .tc := ⟨.hbm, 366, rfl⟩
abbrev main_v213 : Ref sig .tc := ⟨.hbm, 367, rfl⟩
abbrev main_v214 : Ref sig .tc := ⟨.hbm, 368, rfl⟩
abbrev main_v215 : Ref sig .tc := ⟨.hbm, 369, rfl⟩
abbrev main_v216 : Ref sig .tc := ⟨.hbm, 370, rfl⟩
abbrev main_c_66 : Ref sig .tc := ⟨.hbm, 371, rfl⟩
abbrev main_v217 : Ref sig .tc := ⟨.hbm, 372, rfl⟩
abbrev main_v218 : Ref sig .tc := ⟨.hbm, 373, rfl⟩
abbrev main_c_67 : Ref sig .tc := ⟨.hbm, 374, rfl⟩
abbrev main_v219 : Ref sig .tc := ⟨.hbm, 375, rfl⟩
abbrev main_v220 : Ref sig .tc := ⟨.hbm, 376, rfl⟩
abbrev main_v221 : Ref sig .tc := ⟨.hbm, 377, rfl⟩
abbrev main_c_68 : Ref sig .tc := ⟨.hbm, 378, rfl⟩
abbrev main_v222 : Ref sig .tc := ⟨.hbm, 379, rfl⟩
abbrev main_v223 : Ref sig .tc := ⟨.hbm, 380, rfl⟩
abbrev main_c_69 : Ref sig .tc := ⟨.hbm, 381, rfl⟩
abbrev main_v224 : Ref sig .tc := ⟨.hbm, 382, rfl⟩
abbrev main_v225 : Ref sig .tc := ⟨.hbm, 383, rfl⟩
abbrev main_v226 : Ref sig .tc := ⟨.hbm, 384, rfl⟩
abbrev main_c_70 : Ref sig .tc := ⟨.hbm, 385, rfl⟩
abbrev main_v227 : Ref sig .tc := ⟨.hbm, 386, rfl⟩
abbrev main_v228 : Ref sig .tc := ⟨.hbm, 387, rfl⟩
abbrev main_c_71 : Ref sig .tc := ⟨.hbm, 388, rfl⟩
abbrev main_v229 : Ref sig .tc := ⟨.hbm, 389, rfl⟩
abbrev main_v230 : Ref sig .tc := ⟨.hbm, 390, rfl⟩
abbrev main_v231 : Ref sig .tc := ⟨.hbm, 391, rfl⟩
abbrev main_c_72 : Ref sig .tc := ⟨.hbm, 392, rfl⟩
abbrev main_v232 : Ref sig .tc := ⟨.hbm, 393, rfl⟩
abbrev main_v233 : Ref sig .tc := ⟨.hbm, 394, rfl⟩
abbrev main_c_73 : Ref sig .tc := ⟨.hbm, 395, rfl⟩
abbrev main_v234 : Ref sig .tc := ⟨.hbm, 396, rfl⟩
abbrev main_v235 : Ref sig .tc := ⟨.hbm, 397, rfl⟩
abbrev main_v236 : Ref sig .tc := ⟨.hbm, 398, rfl⟩
abbrev main_c_74 : Ref sig .tc := ⟨.hbm, 399, rfl⟩
abbrev main_v237 : Ref sig .tc := ⟨.hbm, 400, rfl⟩
abbrev main_v238 : Ref sig .tc := ⟨.hbm, 401, rfl⟩
abbrev main_c_75 : Ref sig .tc := ⟨.hbm, 402, rfl⟩
abbrev main_v239 : Ref sig .tc := ⟨.hbm, 403, rfl⟩
abbrev main_v240 : Ref sig .tc := ⟨.hbm, 404, rfl⟩
abbrev main_v241 : Ref sig .tc := ⟨.hbm, 405, rfl⟩
abbrev main_v242 : Ref sig .tc := ⟨.hbm, 406, rfl⟩
abbrev main_v243 : Ref sig .tc := ⟨.hbm, 407, rfl⟩
abbrev main_v244 : Ref sig .tc := ⟨.hbm, 408, rfl⟩
abbrev main_v245 : Ref sig .tc := ⟨.hbm, 409, rfl⟩
abbrev main_v246 : Ref sig .tc := ⟨.hbm, 410, rfl⟩
abbrev main_v247 : Ref sig .tc := ⟨.hbm, 411, rfl⟩
abbrev main_v248 : Ref sig .tc := ⟨.hbm, 412, rfl⟩
abbrev main_v249 : Ref sig .tc := ⟨.hbm, 413, rfl⟩
abbrev main_v250 : Ref sig .tc := ⟨.hbm, 414, rfl⟩
abbrev main_v251 : Ref sig .tc := ⟨.hbm, 415, rfl⟩
abbrev main_cst_76 : Ref sig .tc := ⟨.hbm, 416, rfl⟩
abbrev main_v252 : Ref sig .tc := ⟨.hbm, 417, rfl⟩
abbrev main_v253 : Ref sig .tc := ⟨.hbm, 418, rfl⟩
abbrev main_cst_77 : Ref sig .tc := ⟨.hbm, 419, rfl⟩
abbrev main_v254 : Ref sig .tc := ⟨.hbm, 420, rfl⟩
abbrev main_v255 : Ref sig .tc := ⟨.hbm, 421, rfl⟩
abbrev main_cst_78 : Ref sig .tc := ⟨.hbm, 422, rfl⟩
abbrev main_v256 : Ref sig .tc := ⟨.hbm, 423, rfl⟩
abbrev main_v257 : Ref sig .tc := ⟨.hbm, 424, rfl⟩
abbrev main_cst_79 : Ref sig .tc := ⟨.hbm, 425, rfl⟩
abbrev main_v258 : Ref sig .tc := ⟨.hbm, 426, rfl⟩
abbrev main_v259 : Ref sig .tc := ⟨.hbm, 427, rfl⟩
abbrev main_v260 : Ref sig .tc := ⟨.hbm, 428, rfl⟩
abbrev main_v261 : Ref sig .tc := ⟨.hbm, 429, rfl⟩
abbrev main_cst_80 : Ref sig .tc := ⟨.hbm, 430, rfl⟩
abbrev main_v262 : Ref sig .tc := ⟨.hbm, 431, rfl⟩
abbrev main_call9_v0 : Ref sig .tc := ⟨.hbm, 432, rfl⟩
abbrev main_call9_call0_cst : Ref sig .tc := ⟨.hbm, 433, rfl⟩
abbrev main_call9_call0_v0 : Ref sig .tc := ⟨.hbm, 434, rfl⟩
abbrev main_call9_call0_v1 : Ref sig .tc := ⟨.hbm, 435, rfl⟩
abbrev main_call9_call0_v2 : Ref sig .tc := ⟨.hbm, 436, rfl⟩
abbrev main_call9_call0_v3 : Ref sig .tc := ⟨.hbm, 437, rfl⟩
abbrev main_call9_call0_v4 : Ref sig .tc := ⟨.hbm, 438, rfl⟩
abbrev main_call9_call0_v5 : Ref sig .tc := ⟨.hbm, 439, rfl⟩
abbrev main_call9_call0_v6 : Ref sig .tc := ⟨.hbm, 440, rfl⟩
abbrev main_call9_call0_v7 : Ref sig .tc := ⟨.hbm, 441, rfl⟩
abbrev main_call9_call0_v8 : Ref sig .tc := ⟨.hbm, 442, rfl⟩
abbrev main_call9_call0_v9 : Ref sig .tc := ⟨.hbm, 443, rfl⟩
abbrev main_call9_call0_v10 : Ref sig .tc := ⟨.hbm, 444, rfl⟩
abbrev main_call9_call0_v11 : Ref sig .tc := ⟨.hbm, 445, rfl⟩
abbrev main_call9_v1 : Ref sig .tc := ⟨.hbm, 446, rfl⟩
abbrev main_v263 : Ref sig .tc := ⟨.hbm, 447, rfl⟩
abbrev main_v264 : Ref sig .tc := ⟨.hbm, 448, rfl⟩
abbrev main_cst_81 : Ref sig .tc := ⟨.hbm, 449, rfl⟩
abbrev main_v265 : Ref sig .tc := ⟨.hbm, 450, rfl⟩
abbrev main_c_82 : Ref sig .tc := ⟨.hbm, 451, rfl⟩
abbrev main_v266 : Ref sig .tc := ⟨.hbm, 452, rfl⟩
abbrev main_v267 : Ref sig .tc := ⟨.hbm, 453, rfl⟩
abbrev main_cst_83 : Ref sig .tc := ⟨.hbm, 454, rfl⟩
abbrev main_v268 : Ref sig .tc := ⟨.hbm, 455, rfl⟩
abbrev main_v269 : Ref sig .tc := ⟨.hbm, 456, rfl⟩
abbrev main_cst_84 : Ref sig .tc := ⟨.hbm, 457, rfl⟩
abbrev main_call10_v0 : Ref sig .tc := ⟨.hbm, 458, rfl⟩
abbrev main_call10_v1 : Ref sig .tc := ⟨.hbm, 459, rfl⟩
abbrev main_v270 : Ref sig .tc := ⟨.hbm, 460, rfl⟩
abbrev main_v271 : Ref sig .tc := ⟨.hbm, 461, rfl⟩
abbrev main_cst_85 : Ref sig .tc := ⟨.hbm, 462, rfl⟩
abbrev main_call11_v0 : Ref sig .tc := ⟨.hbm, 463, rfl⟩
abbrev main_call11_v1 : Ref sig .tc := ⟨.hbm, 464, rfl⟩
abbrev main_v272 : Ref sig .tc := ⟨.hbm, 465, rfl⟩
abbrev main_cst_86 : Ref sig .tc := ⟨.hbm, 466, rfl⟩
abbrev main_v273 : Ref sig .tc := ⟨.hbm, 467, rfl⟩
abbrev main_v274 : Ref sig .tc := ⟨.hbm, 468, rfl⟩
abbrev main_v275 : Ref sig .tc := ⟨.hbm, 469, rfl⟩
abbrev main_v276 : Ref sig .tc := ⟨.hbm, 470, rfl⟩
abbrev main_v277 : Ref sig .tc := ⟨.hbm, 471, rfl⟩
abbrev main_v278 : Ref sig .tc := ⟨.hbm, 472, rfl⟩
abbrev main_cst_87 : Ref sig .tc := ⟨.hbm, 473, rfl⟩
abbrev main_v279 : Ref sig .tc := ⟨.hbm, 474, rfl⟩

abbrev nD : Nat := 1
abbrev τ : Topo := Topo.v7x

variable {F : FTy → Type} [FloatOps F]

class Facts₀ : Prop where
  bcast_S_S8x2x96x96x96 : S_.BroadcastsInDim S8x2x96x96x96 (![] : Fin 0 → Fin S8x2x96x96x96.rank)
  reducesTo_S8x2x96x96x96_S_d0_1_2_3_4 : S8x2x96x96x96.ReducesTo [0, 1, 2, 3, 4] S_
  h_S_ : 0 < S_.numel
  slices_S8x128x4_S8x128x1_0_0_0 : S8x128x4.Slices ![0, 0, 0] S8x128x1
  shapeCasts_S8x128x1_S8x128 : S8x128x1.ShapeCasts S8x128
  bcast_S_S8x128 : S_.BroadcastsInDim S8x128 (![] : Fin 0 → Fin S8x128.rank)
  bcast_S_S8x128x4 : S_.BroadcastsInDim S8x128x4 (![] : Fin 0 → Fin S8x128x4.rank)
  bcast_S8_S8x1_0 : S8.BroadcastsInDim S8x1 (![0] : Fin 1 → Fin S8x1.rank)
  slices_S8x128x4_S8x128x1_0_0_1 : S8x128x4.Slices ![0, 0, 1] S8x128x1
  slices_S8x128x4_S8x128x1_0_0_2 : S8x128x4.Slices ![0, 0, 2] S8x128x1
  slices_S8x128x4_S8x128x1_0_0_3 : S8x128x4.Slices ![0, 0, 3] S8x128x1
  bcast_S_S8x1 : S_.BroadcastsInDim S8x1 (![] : Fin 0 → Fin S8x1.rank)
  bcast_S8x1_S8x128_0_1 : S8x1.BroadcastsInDim S8x128 (![0, 1] : Fin 2 → Fin S8x128.rank)
  bcast_S8x128_S8x128x1_0_1 : S8x128.BroadcastsInDim S8x128x1 (![0, 1] : Fin 2 → Fin S8x128x1.rank)
  concatenates_S8x128x1_S8x128x1_S8x128x1_S8x128x1_S8x128x1_S8x128x5_d2 : Shape.Concatenates [S8x128x1, S8x128x1, S8x128x1, S8x128x1, S8x128x1] S8x128x5 2
  reducesTo_S8x128_S8_d1 : S8x128.ReducesTo [1] S8
  bcast_S_S8 : S_.BroadcastsInDim S8 (![] : Fin 0 → Fin S8.rank)
  reducesTo_S8_S_d0 : S8.ReducesTo [0] S_
  bcast_S_S8x2x48x48x48 : S_.BroadcastsInDim S8x2x48x48x48 (![] : Fin 0 → Fin S8x2x48x48x48.rank)
  reducesTo_S8x2x48x48x48_S_d0_1_2_3_4 : S8x2x48x48x48.ReducesTo [0, 1, 2, 3, 4] S_
  bcast_S_S8x2x24x24x24 : S_.BroadcastsInDim S8x2x24x24x24 (![] : Fin 0 → Fin S8x2x24x24x24.rank)
  reducesTo_S8x2x24x24x24_S_d0_1_2_3_4 : S8x2x24x24x24.ReducesTo [0, 1, 2, 3, 4] S_
  bcast_S_S1 : S_.BroadcastsInDim S1 (![] : Fin 0 → Fin S1.rank)
  concatenates_S1_S1_S2_d0 : Shape.Concatenates [S1, S1] S2 0
  bcast_S_S2 : S_.BroadcastsInDim S2 (![] : Fin 0 → Fin S2.rank)
  gather_S8x2x96x96x96_S8x128x5_S8x128_n_01234_n_n_01234_2_11111_wf : GatherDims.WF S8x2x96x96x96 S8x128x5 S8x128 [] [0, 1, 2, 3, 4] [] [0, 1, 2, 3, 4] [] 2 ![1, 1, 1, 1, 1]
  gather_S8x2x48x48x48_S8x128x5_S8x128_n_01234_n_n_01234_2_11111_wf : GatherDims.WF S8x2x48x48x48 S8x128x5 S8x128 [] [0, 1, 2, 3, 4] [] [0, 1, 2, 3, 4] [] 2 ![1, 1, 1, 1, 1]
  gather_S8x2x24x24x24_S8x128x5_S8x128_n_01234_n_n_01234_2_11111_wf : GatherDims.WF S8x2x24x24x24 S8x128x5 S8x128 [] [0, 1, 2, 3, 4] [] [0, 1, 2, 3, 4] [] 2 ![1, 1, 1, 1, 1]

variable [Facts₀]

def gather_S8x2x96x96x96_S8x128x5_S8x128_n_01234_n_n_01234_2_11111 : GatherDims S8x2x96x96x96 S8x128x5 S8x128 where
  offsetDims := []
  collapsedSliceDims := [0, 1, 2, 3, 4]
  operandBatchingDims := []
  startIndicesBatchingDims := []
  startIndexMap := [0, 1, 2, 3, 4]
  indexVectorDim := 2
  sliceSizes := ![1, 1, 1, 1, 1]
  wf := gather_S8x2x96x96x96_S8x128x5_S8x128_n_01234_n_n_01234_2_11111_wf
def gather_S8x2x48x48x48_S8x128x5_S8x128_n_01234_n_n_01234_2_11111 : GatherDims S8x2x48x48x48 S8x128x5 S8x128 where
  offsetDims := []
  collapsedSliceDims := [0, 1, 2, 3, 4]
  operandBatchingDims := []
  startIndicesBatchingDims := []
  startIndexMap := [0, 1, 2, 3, 4]
  indexVectorDim := 2
  sliceSizes := ![1, 1, 1, 1, 1]
  wf := gather_S8x2x48x48x48_S8x128x5_S8x128_n_01234_n_n_01234_2_11111_wf
def gather_S8x2x24x24x24_S8x128x5_S8x128_n_01234_n_n_01234_2_11111 : GatherDims S8x2x24x24x24 S8x128x5 S8x128 where
  offsetDims := []
  collapsedSliceDims := [0, 1, 2, 3, 4]
  operandBatchingDims := []
  startIndicesBatchingDims := []
  startIndexMap := [0, 1, 2, 3, 4]
  indexVectorDim := 2
  sliceSizes := ![1, 1, 1, 1, 1]
  wf := gather_S8x2x24x24x24_S8x128x5_S8x128_n_01234_n_n_01234_2_11111_wf

class Facts : Prop extends Facts₀ where

variable [Facts]
-- ==== Proof.K.Neg0.lean ====
import proofs.«168589_j44040594653637_1_alg».proof.Proof.Gen.Kernel.Launch
import proofs.«168589_j44040594653637_1_alg».proof.Proof.Gen.Kernel.Skeleton
import proofs.«168589_j44040594653637_1_alg».proof.Proof.Gen.Kernel.Points
import Idealize.ShloMosaic.Lib.Pipeline.FrameBody
import Idealize.ShloMosaic.Lib.Ring
import Idealize.ShloMosaic.Lib.Tactic

noncomputable section

namespace Cert.Kernel.Neg

open Idealize.ShloMosaic Idealize.ShloMosaic.TcCoe Idealize.SL Idealize.SL.RA
open Idealize.ShloMosaic.Pipeline (Dat)
open Cert.Kernel Cert.Kernel.Gen

variable {F : FTy → Type} [FloatOps F]
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xb0 (c : Dev nD) (t : Fin cfg0.N) : Vec F S4096x128 .f32 := iblk0 V c 0 t
abbrev gb0 (c : Dev nD) (t : Fin cfg0.N) : Vec F S4096x128 .f32 := iblk0 V c 1 t

def step0 (x g : Vec F S4096x128 .f32) (p : Vec F S1x1 .f32 × Vec F S1x1 .f32) : Vec F S1x1 .f32 × Vec F S1x1 .f32 :=
  (k0_pay6 x g p.1, k0_pay1 (k0_pay5 x g) (k0_pay7 p.2))

def acc0 (c : Dev nD) : (n : ℕ) → n < cfg0.N → Vec F S1x1 .f32 × Vec F S1x1 .f32
  | 0, hn => step0 (xb0 V c ⟨0, hn⟩) (gb0 V c ⟨0, hn⟩) (k0_pay2, k0_pay3)
  | n + 1, hn => step0 (xb0 V c ⟨n + 1, hn⟩) (gb0 V c ⟨n + 1, hn⟩) (acc0 c n (Nat.lt_of_succ_lt hn))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ _ := Pipeline.ΦA spec0 c
  q _ := fullShare
  owed _ := 0

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = (acc0 V c t.val t.isLt).1 := rfl
theorem after0_3 (c : Dev nD) (t : Fin cfg0.N) : (dat0 V c).after 3 t = (acc0 V c t.val t.isLt).2 := rfl

end Cert.Kernel.Neg

end
-- ==== Proof.K.Neg1.lean ====
import proofs.«168589_j44040594653637_1_alg».proof.Proof.Gen.Kernel.Launch
import proofs.«168589_j44040594653637_1_alg».proof.Proof.Gen.Kernel.Skeleton
import proofs.«168589_j44040594653637_1_alg».proof.Proof.Gen.Kernel.Points
import Idealize.ShloMosaic.Lib.Pipeline.FrameBody
import Idealize.ShloMosaic.Lib.Ring
import Idealize.ShloMosaic.Lib.Tactic

noncomputable section

namespace Cert.Kernel.Neg

open Idealize.ShloMosaic Idealize.ShloMosaic.TcCoe Idealize.SL Idealize.SL.RA
open Idealize.ShloMosaic.Pipeline (Dat)
open Cert.Kernel Cert.Kernel.Gen

variable {F : FTy → Type} [FloatOps F]
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xb1 (c : Dev nD) (t : Fin cfg1.N) : Vec F S512x128 .f32 := iblk1 V c 0 t
abbrev gb1 (c : Dev nD) (t : Fin cfg1.N) : Vec F S512x128 .f32 := iblk1 V c 1 t

def step1 (x g : Vec F S512x128 .f32) (p : Vec F S1x1 .f32 × Vec F S1x1 .f32) : Vec F S1x1 .f32 × Vec F S1x1 .f32 :=
  (k1_pay6 x g p.1, k1_pay1 (k1_pay5 x g) (k1_pay7 p.2))

def acc1 (c : Dev nD) : (n : ℕ) → n < cfg1.N → Vec F S1x1 .f32 × Vec F S1x1 .f32
  | 0, hn => step1 (xb1 V c ⟨0, hn⟩) (gb1 V c ⟨0, hn⟩) (k1_pay2, k1_pay3)
  | n + 1, hn => step1 (xb1 V c ⟨n + 1, hn⟩) (gb1 V c ⟨n + 1, hn⟩) (acc1 c n (Nat.lt_of_succ_lt hn))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (acc1 V c t.val t.isLt).1
    | ⟨3, _⟩ => (acc1 V c t.val t.isLt).2
  Φ _ := Pipeline.ΦA spec1 c
  q _ := fullShare
  owed _ := 0

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = (acc1 V c t.val t.isLt).1 := rfl
theorem after1_3 (c : Dev nD) (t : Fin cfg1.N) : (dat1 V c).after 3 t = (acc1 V c t.val t.isLt).2 := rfl

end Cert.Kernel.Neg

end
-- ==== Proof.K.Neg2.lean ====
import proofs.«168589_j44040594653637_1_alg».proof.Proof.Gen.Kernel.Launch
import proofs.«168589_j44040594653637_1_alg».proof.Proof.Gen.Kernel.Skeleton
import proofs.«168589_j44040594653637_1_alg».proof.Proof.Gen.Kernel.Points
import Idealize.ShloMosaic.Lib.Pipeline.FrameBody
import Idealize.ShloMosaic.Lib.Ring
import Idealize.ShloMosaic.Lib.Tactic

noncomputable section

namespace Cert.Kernel.Neg

open Idealize.ShloMosaic Idealize.ShloMosaic.TcCoe Idealize.SL Idealize.SL.RA
open Idealize.ShloMosaic.Pipeline (Dat)
open Cert.Kernel Cert.Kernel.Gen

variable {F : FTy → Type} [FloatOps F]
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xb2 (c : Dev nD) (t : Fin cfg2.N) : Vec F S64x128 .f32 := iblk2 V c 0 t
abbrev gb2 (c : Dev nD) (t : Fin cfg2.N) : Vec F S64x128 .f32 := iblk2 V c 1 t

def step2 (x g : Vec F S64x128 .f32) (p : Vec F S1x1 .f32 × Vec F S1x1 .f32) : Vec F S1x1 .f32 × Vec F S1x1 .f32 :=
  (k2_pay6 x g p.1, k2_pay1 (k2_pay5 x g) (k2_pay7 p.2))

def acc2 (c : Dev nD) : (n : ℕ) → n < cfg2.N → Vec F S1x1 .f32 × Vec F S1x1 .f32
  | 0, hn => step2 (xb2 V c ⟨0, hn⟩) (gb2 V c ⟨0, hn⟩) (k2_pay2, k2_pay3)
  | n + 1, hn => step2 (xb2 V c ⟨n + 1, hn⟩) (gb2 V c ⟨n + 1, hn⟩) (acc2 c n (Nat.lt_of_succ_lt hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (acc2 V c t.val t.isLt).1
    | ⟨3, _⟩ => (acc2 V c t.val t.isLt).2
  Φ _ := Pipeline.ΦA spec2 c
  q _ := fullShare
  owed _ := 0

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = (acc2 V c t.val t.isLt).1 := rfl
theorem after2_3 (c : Dev nD) (t : Fin cfg2.N) : (dat2 V c).after 3 t = (acc2 V c t.val t.isLt).2 := rfl

end Cert.Kernel.Neg

end
-- ==== Proof.K.Boundaries.lean ====
import proofs.«168589_j44040594653637_1_alg».proof.Proof.K.Neg0
import proofs.«168589_j44040594653637_1_alg».proof.Proof.K.Neg1
import proofs.«168589_j44040594653637_1_alg».proof.Proof.K.Neg2
import Idealize.ShloMosaic.Lib.Pipeline.RegionsLoop
import Idealize.ShloMosaic.Lib.Pipeline.FrameSuffix

noncomputable section

namespace Cert.Kernel.Neg

open Idealize.ShloMosaic Idealize.ShloMosaic.TcCoe
open Idealize.SL Idealize.SL.Sem
open Idealize.ShloMosaic.Pipeline (Dat)
open Cert.Kernel Cert.Kernel.Gen

variable {F : FTy → Type} [FloatOps F]
/-- A boundary's valuation on every core; the same, read at the TensorCore's references. -/
abbrev Vals (F : FTy → Type) := Dev nD → Valuation τ sig (Elt F)
abbrev Bufs (F : FTy → Type) := (c : Dev nD) → (b : Ref sig .tc) → Buf (Elt F) ((c : Thread nD τ).loc b)

variable (m : (ℓ : Loc nD τ sig) → Buf (Elt F) ℓ) (ρ : Dev nD → PrngReg)

abbrev W0 : Vals F := fun c b => (s₀ m ρ).mem ((c : Dev nD), b)
abbrev W1 : Vals F := fun c => StableHlo.after hostOps0 (W0 m ρ c)
abbrev V1 : Bufs F := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev W3 : Vals F := fun c => StableHlo.after hostOps1 (W2 m ρ c)
abbrev W4 : Vals F := fun c => StableHlo.after hostOps1_1 (W3 m ρ c)
abbrev W5 : Vals F := fun c => StableHlo.after hostOps1_2 (W4 m ρ c)
abbrev W6 : Vals F := fun c => StableHlo.after hostOps1_3 (W5 m ρ c)
abbrev W7 : Vals F := fun c => StableHlo.after hostOps1_4 (W6 m ρ c)
abbrev W8 : Vals F := fun c => StableHlo.after hostOps1_5 (W7 m ρ c)
abbrev W9 : Vals F := fun c => StableHlo.after hostOps1_6 (W8 m ρ c)
abbrev V9 : Bufs F := fun c b => W9 m ρ c b
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N :=
  Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) :=
  Pipeline.withArrays_of_ne spec1 c _ _ b hb
abbrev W11 : Vals F := fun c => StableHlo.after hostOps2 (W10 m ρ c)
abbrev W12 : Vals F := fun c => StableHlo.after hostOps2_1 (W11 m ρ c)
abbrev W13 : Vals F := fun c => StableHlo.after hostOps2_2 (W12 m ρ c)
abbrev W14 : Vals F := fun c => StableHlo.after hostOps2_3 (W13 m ρ c)
abbrev W15 : Vals F := fun c => StableHlo.after hostOps2_4 (W14 m ρ c)
abbrev W16 : Vals F := fun c => StableHlo.after hostOps2_5 (W15 m ρ c)
abbrev W17 : Vals F := fun c => StableHlo.after hostOps2_6 (W16 m ρ c)
abbrev V17 : Bufs F := fun c b => W17 m ρ c b
def W18 (c : Dev nD) : Valuation τ sig (Elt F) :=
  Pipeline.withArrays spec2 c (W17 m ρ c) fun w => (dat2 (V17 m ρ) c).arrAt w cfg2.N
theorem W18_arr (c : Dev nD) (w : Fin cfg2.W) :
    W18 m ρ c (Proc.devRef .tc (Pipeline.arrRef spec2 w)) = (dat2 (V17 m ρ) c).arrAt w cfg2.N :=
  Pipeline.withArrays_arr spec2 launch2.win.arr_inj c _ _ w
theorem W18_of_ne (c : Dev nD) (b : Ref sig .tc) (hb : ∀ w, Pipeline.arrRef spec2 w ≠ b) :
    W18 m ρ c (Proc.devRef .tc b) = W17 m ρ c (Proc.devRef .tc b) :=
  Pipeline.withArrays_of_ne spec2 c _ _ b hb
abbrev W19 : Vals F := fun c => StableHlo.after hostOps3 (W18 m ρ c)
abbrev W20 : Vals F := fun c => StableHlo.after hostOps3_1 (W19 m ρ c)
abbrev W21 : Vals F := fun c => StableHlo.after hostOps3_2 (W20 m ρ c)
abbrev W22 : Vals F := fun c => StableHlo.after hostOps3_3 (W21 m ρ c)
abbrev W23 : Vals F := fun c => StableHlo.after hostOps3_4 (W22 m ρ c)
abbrev W24 : Vals F := fun c => StableHlo.after hostOps3_5 (W23 m ρ c)
abbrev W25 : Vals F := fun c => StableHlo.after hostOps3_6 (W24 m ρ c)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V9 m ρ) c
  | ⟨2, _⟩ => fun c => dat2 (V17 m ρ) c

end Cert.Kernel.Neg

end
-- ==== Proof.K.NegBody0.lean ====
import proofs.«168589_j44040594653637_1_alg».proof.Proof.K.Neg0
import Idealize.ShloMosaic.Lib.Pipeline.Value

noncomputable section

namespace Cert.Kernel.Neg

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

theorem hz0 : (![0, 0] : Fin 2 → Nat) = fun _ => 0 := by decide

/-- A last store through the whole rectangle decides what is read, whatever was stored before. -/
theorem last0 (v : View sig .tc .vmem S1x1 .f32) (f) (w : Vec F S1x1 .f32) (L) :
    v.read (Elt F) (v.writes (Elt F) f (⟨Rect.unit ![0, 0] S1x1.size inb_S1x1_S1x1_0_0, w⟩ :: L)) = w :=
  (View.read_writes_eq_canon _ _ _ fun y => ⟨_, List.mem_cons_self, View.mem_set_unit_zero hz0 inb_S1x1_S1x1_0_0 y⟩).trans
    (View.canon_cons_unit_zero hz0 _ w L)

/-- The condition of the body's one branch: is the grid coordinate zero? -/
abbrev cond0_0 (i : grid0.Coords) : Prop := Scalar.cmpi .ne (Scalar.extui (Scalar.cmpi .eq (BitVec.ofNat 32 (i 0).val) 0#32)) 0#32 = 1#1

theorem hcond0_0 : ∀ t : Fin cfg0.N, cond0_0 (grid0.coords t) ↔ t.val = 0 := by decide +kernel

variable (V : (c : Dev nD) → (b : Ref sig .tc) → Buf (Elt F) ((c : Thread nD τ).loc b)) (c : Dev nD)
  (a1 a2 : Memref sig .tc .vmem S4096x128 .f32) (a3 a4 : Memref sig .tc .vmem S1x1 .f32)

/-- The four buffers the body is called on, at given contents. -/
def bufs0 (x0 x1 : Vec F S4096x128 .f32) (y2 y3 : Vec F S1x1 .f32) : sProp 𝕄 :=
  iprop(owns c a1 fullShare x0 ∗ owns c a2 fullShare x1 ∗ owns c a3 fullShare y2 ∗ owns c a4 fullShare y3)

/-- The body returns the inputs as read and each sum updated: from the zero it first stores where the branch is taken, else from what the buffer held. -/
theorem kernelRun0 (i : grid0.Coords) (h1 : a1.IsWhole) (h2 : a2.IsWhole) (h3 : a3.IsWhole) (h4 : a4.IsWhole)
    (x0 x1 : Vec F S4096x128 .f32) (d2 d3 : Vec F S1x1 .f32) (E : Set ℕ) (K : PUnit → sProp 𝕄) :
    iprop(bufs0 c a1 a2 a3 a4 x0 x1 d2 d3
        ∗ (bufs0 c a1 a2 a3 a4 x0 x1 (k0_pay6 x0 x1 (if cond0_0 i then k0_pay2 else d2))
            (k0_pay1 (k0_pay5 x0 x1) (k0_pay7 (if cond0_0 i then k0_pay3 else d3))) -∗ K ⟨⟩))
      ⊢ wp frame (wpE (defs₀ (F := F)) Variants.none c none) E (cc0__neg_kernel i a1 h1 a2 h2 a3 h3 a4 h4) K := by
  rw [cc0__neg_kernel_eq_skeleton, cc0__neg_kernel_skel, k0_part1_eq_skeleton]
  unfold bufs0 owns
  iintro ⟨⟨⟨%f0, %hf0, H0⟩, ⟨%f1, %hf1, H1⟩, ⟨%f2, %hf2, H2⟩, ⟨%f3, %hf3, H3⟩⟩, Hk⟩
  subst hf0 hf1 hf2 hf3
  by_cases hc : cond0_0 i <;> [rw [if_pos hc, if_pos hc]; rw [if_neg hc, if_neg hc]] <;>
  · sl_exec (disch := exact hc)
    sl_step
    iapply Hk
    isplitl [H0]; rotate_left; isplitl [H1]; rotate_left; isplitl [H2]
    all_goals
      iexists _; isplitr; swap; iassumption
      ipureintro
      first
      | rw [last0]; sl_unfold_words
        simp only [View.readAt_eq_ld, View.ld_unit_zero (S := S4096x128) hz0, View.ld_unit_zero (S := S1x1) hz0,
          View.readCov_unit_zero (S := S1x1) _ hz0]
      | rfl

theorem before0_0 (t : Fin cfg0.N) (d) : (dat0 V c).before 0 t d = iblk0 V c 0 t :=
  (Dat.before_in_eq_fetched _ 0 rfl (fun _ => rfl) (fun _ _ _ => rfl) (fun _ => rfl) t d).trans rfl

theorem before0_1 (t : Fin cfg0.N) (d) : (dat0 V c).before 1 t d = iblk0 V c 1 t :=
  (Dat.before_in_eq_fetched _ 1 rfl (fun _ => rfl) (fun _ _ _ => rfl) (fun _ => rfl) t d).trans rfl

/-- The running sums are one step from zero at the first point, from what the sums' buffers hold at a later one. -/
theorem acc0_eq (t : Fin cfg0.N) (d2 d3) :
    acc0 V c t.val t.isLt = step0 (xb0 V c t) (gb0 V c t)
      (if cond0_0 (grid0.coords t) then k0_pay2 else (dat0 V c).before 2 t d2,
       if cond0_0 (grid0.coords t) then k0_pay3 else (dat0 V c).before 3 t d3) := by
  by_cases hc : cond0_0 (grid0.coords t)
  · rw [if_pos hc, if_pos hc]
    have h0 := (hcond0_0 t).mp hc
    obtain ⟨_, _⟩ := t; subst h0; rfl
  · have h0 := mt (hcond0_0 t).mpr hc
    have hN : t.val < 27 := t.isLt.trans_eq N_0
    rw [if_neg hc, if_neg hc,
      Dat.before_out_kept _ 2 rfl t h0 (Bool.eq_false_iff.mpr (mt (flush0_2 _).mp (by dsimp only; omega))) (fun _ => rfl) (fun _ _ => rfl),
      Dat.before_out_kept _ 3 rfl t h0 (Bool.eq_false_iff.mpr (mt (flush0_3 _).mp (by dsimp only; omega))) (fun _ => rfl) (fun _ _ => rfl)]
    obtain ⟨_ | n, hn⟩ := t
    · cases h0 rfl
    · rfl

theorem body_obligation0 : BodyObligation (dat0 (F := F) V c) (defs₀ (F := F)) Variants.none () Set.univ := fun t => by
  rw [bigSep_W0, bigSep_W0]
  dsimp only
  iintro ⟨HΦ, Ho, ⟨%d0, H0⟩, ⟨%d1, H1⟩, ⟨%d2, H2⟩, ⟨%d3, H3⟩⟩
  iapply kernelRun0
  unfold bufs0
  iframe H0 H1 H2 H3
  iintro ⟨H0, H1, H2, H3⟩
  rw [before0_0, before0_1, after0_0, after0_1, after0_2, after0_3, acc0_eq V c t d2 d3]
  dsimp only [step0]
  iframe
  istop
  exact .rfl

end Cert.Kernel.Neg

end
-- ==== Proof.K.NegBody1.lean ====
import proofs.«168589_j44040594653637_1_alg».proof.Proof.K.Neg1
import proofs.«168589_j44040594653637_1_alg».proof.Proof.K.NegBody0

noncomputable section

namespace Cert.Kernel.Neg

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

/-- The condition of the body's one branch: is the grid coordinate zero? -/
abbrev cond1_0 (i : grid1.Coords) : Prop := Scalar.cmpi .ne (Scalar.extui (Scalar.cmpi .eq (BitVec.ofNat 32 (i 0).val) 0#32)) 0#32 = 1#1

theorem hcond1_0 : ∀ t : Fin cfg1.N, cond1_0 (grid1.coords t) ↔ t.val = 0 := by decide +kernel

variable (V : (c : Dev nD) → (b : Ref sig .tc) → Buf (Elt F) ((c : Thread nD τ).loc b)) (c : Dev nD)
  (a1 a2 : Memref sig .tc .vmem S512x128 .f32) (a3 a4 : Memref sig .tc .vmem S1x1 .f32)

/-- The four buffers the body is called on, at given contents. -/
def bufs1 (x0 x1 : Vec F S512x128 .f32) (y2 y3 : Vec F S1x1 .f32) : sProp 𝕄 :=
  iprop(owns c a1 fullShare x0 ∗ owns c a2 fullShare x1 ∗ owns c a3 fullShare y2 ∗ owns c a4 fullShare y3)

/-- The body returns the inputs as read and each sum updated: from the zero it first stores where the branch is taken, else from what the buffer held. -/
theorem kernelRun1 (i : grid1.Coords) (h1 : a1.IsWhole) (h2 : a2.IsWhole) (h3 : a3.IsWhole) (h4 : a4.IsWhole)
    (x0 x1 : Vec F S512x128 .f32) (d2 d3 : Vec F S1x1 .f32) (E : Set ℕ) (K : PUnit → sProp 𝕄) :
    iprop(bufs1 c a1 a2 a3 a4 x0 x1 d2 d3
        ∗ (bufs1 c a1 a2 a3 a4 x0 x1 (k1_pay6 x0 x1 (if cond1_0 i then k1_pay2 else d2))
            (k1_pay1 (k1_pay5 x0 x1) (k1_pay7 (if cond1_0 i then k1_pay3 else d3))) -∗ K ⟨⟩))
      ⊢ wp frame (wpE (defs₀ (F := F)) Variants.none c none) E (cc1__neg_kernel i a1 h1 a2 h2 a3 h3 a4 h4) K := by
  rw [cc1__neg_kernel_eq_skeleton, cc1__neg_kernel_skel, k1_part1_eq_skeleton]
  unfold bufs1 owns
  iintro ⟨⟨⟨%f0, %hf0, H0⟩, ⟨%f1, %hf1, H1⟩, ⟨%f2, %hf2, H2⟩, ⟨%f3, %hf3, H3⟩⟩, Hk⟩
  subst hf0 hf1 hf2 hf3
  by_cases hc : cond1_0 i <;> [rw [if_pos hc, if_pos hc]; rw [if_neg hc, if_neg hc]] <;>
  · sl_exec (disch := exact hc)
    sl_step
    iapply Hk
    isplitl [H0]; rotate_left; isplitl [H1]; rotate_left; isplitl [H2]
    all_goals
      iexists _; isplitr; swap; iassumption
      ipureintro
      first
      | rw [last0]; sl_unfold_words
        simp only [View.readAt_eq_ld, View.ld_unit_zero (S := S512x128) hz0, View.ld_unit_zero (S := S1x1) hz0,
          View.readCov_unit_zero (S := S1x1) _ hz0]
      | rfl

theorem before1_0 (t : Fin cfg1.N) (d) : (dat1 V c).before 0 t d = iblk1 V c 0 t :=
  (Dat.before_in_eq_fetched _ 0 rfl (fun _ => rfl) (fun _ _ _ => rfl) (fun _ => rfl) t d).trans rfl

theorem before1_1 (t : Fin cfg1.N) (d) : (dat1 V c).before 1 t d = iblk1 V c 1 t :=
  (Dat.before_in_eq_fetched _ 1 rfl (fun _ => rfl) (fun _ _ _ => rfl) (fun _ => rfl) t d).trans rfl

/-- The running sums are one step from zero at the first point, from what the sums' buffers hold at a later one. -/
theorem acc1_eq (t : Fin cfg1.N) (d2 d3) :
    acc1 V c t.val t.isLt = step1 (xb1 V c t) (gb1 V c t)
      (if cond1_0 (grid1.coords t) then k1_pay2 else (dat1 V c).before 2 t d2,
       if cond1_0 (grid1.coords t) then k1_pay3 else (dat1 V c).before 3 t d3) := by
  by_cases hc : cond1_0 (grid1.coords t)
  · rw [if_pos hc, if_pos hc]
    have h0 := (hcond1_0 t).mp hc
    obtain ⟨_, _⟩ := t; subst h0; rfl
  · have h0 := mt (hcond1_0 t).mpr hc
    have hN : t.val < 27 := t.isLt.trans_eq N_1
    rw [if_neg hc, if_neg hc,
      Dat.before_out_kept _ 2 rfl t h0 (Bool.eq_false_iff.mpr (mt (flush1_2 _).mp (by dsimp only; omega))) (fun _ => rfl) (fun _ _ => rfl),
      Dat.before_out_kept _ 3 rfl t h0 (Bool.eq_false_iff.mpr (mt (flush1_3 _).mp (by dsimp only; omega))) (fun _ => rfl) (fun _ _ => rfl)]
    obtain ⟨_ | n, hn⟩ := t
    · cases h0 rfl
    · rfl

theorem body_obligation1 : BodyObligation (dat1 (F := F) V c) (defs₀ (F := F)) Variants.none () Set.univ := fun t => by
  rw [bigSep_W1, bigSep_W1]
  dsimp only
  iintro ⟨HΦ, Ho, ⟨%d0, H0⟩, ⟨%d1, H1⟩, ⟨%d2, H2⟩, ⟨%d3, H3⟩⟩
  iapply kernelRun1
  unfold bufs1
  iframe H0 H1 H2 H3
  iintro ⟨H0, H1, H2, H3⟩
  rw [before1_0, before1_1, after1_0, after1_1, after1_2, after1_3, acc1_eq V c t d2 d3]
  dsimp only [step1]
  iframe
  istop
  exact .rfl

end Cert.Kernel.Neg

end
-- ==== Proof.K.NegBody2.lean ====
import proofs.«168589_j44040594653637_1_alg».proof.Proof.K.Neg2
import proofs.«168589_j44040594653637_1_alg».proof.Proof.K.NegBody0

noncomputable section

namespace Cert.Kernel.Neg

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

/-- The condition of the body's one branch: is the grid coordinate zero? -/
abbrev cond2_0 (i : grid2.Coords) : Prop := Scalar.cmpi .ne (Scalar.extui (Scalar.cmpi .eq (BitVec.ofNat 32 (i 0).val) 0#32)) 0#32 = 1#1

theorem hcond2_0 : ∀ t : Fin cfg2.N, cond2_0 (grid2.coords t) ↔ t.val = 0 := by decide +kernel

variable (V : (c : Dev nD) → (b : Ref sig .tc) → Buf (Elt F) ((c : Thread nD τ).loc b)) (c : Dev nD)
  (a1 a2 : Memref sig .tc .vmem S64x128 .f32) (a3 a4 : Memref sig .tc .vmem S1x1 .f32)

/-- The four buffers the body is called on, at given contents. -/
def bufs2 (x0 x1 : Vec F S64x128 .f32) (y2 y3 : Vec F S1x1 .f32) : sProp 𝕄 :=
  iprop(owns c a1 fullShare x0 ∗ owns c a2 fullShare x1 ∗ owns c a3 fullShare y2 ∗ owns c a4 fullShare y3)

/-- The body returns the inputs as read and each sum updated: from the zero it first stores where the branch is taken, else from what the buffer held. -/
theorem kernelRun2 (i : grid2.Coords) (h1 : a1.IsWhole) (h2 : a2.IsWhole) (h3 : a3.IsWhole) (h4 : a4.IsWhole)
    (x0 x1 : Vec F S64x128 .f32) (d2 d3 : Vec F S1x1 .f32) (E : Set ℕ) (K : PUnit → sProp 𝕄) :
    iprop(bufs2 c a1 a2 a3 a4 x0 x1 d2 d3
        ∗ (bufs2 c a1 a2 a3 a4 x0 x1 (k2_pay6 x0 x1 (if cond2_0 i then k2_pay2 else d2))
            (k2_pay1 (k2_pay5 x0 x1) (k2_pay7 (if cond2_0 i then k2_pay3 else d3))) -∗ K ⟨⟩))
      ⊢ wp frame (wpE (defs₀ (F := F)) Variants.none c none) E (cc2__neg_kernel i a1 h1 a2 h2 a3 h3 a4 h4) K := by
  rw [cc2__neg_kernel_eq_skeleton, cc2__neg_kernel_skel, k2_part1_eq_skeleton]
  unfold bufs2 owns
  iintro ⟨⟨⟨%f0, %hf0, H0⟩, ⟨%f1, %hf1, H1⟩, ⟨%f2, %hf2, H2⟩, ⟨%f3, %hf3, H3⟩⟩, Hk⟩
  subst hf0 hf1 hf2 hf3
  by_cases hc : cond2_0 i <;> [rw [if_pos hc, if_pos hc]; rw [if_neg hc, if_neg hc]] <;>
  · sl_exec (disch := exact hc)
    sl_step
    iapply Hk
    isplitl [H0]; rotate_left; isplitl [H1]; rotate_left; isplitl [H2]
    all_goals
      iexists _; isplitr; swap; iassumption
      ipureintro
      first
      | rw [last0]; sl_unfold_words
        simp only [View.readAt_eq_ld, View.ld_unit_zero (S := S64x128) hz0, View.ld_unit_zero (S := S1x1) hz0,
          View.readCov_unit_zero (S := S1x1) _ hz0]
      | rfl

theorem before2_0 (t : Fin cfg2.N) (d) : (dat2 V c).before 0 t d = iblk2 V c 0 t :=
  (Dat.before_in_eq_fetched _ 0 rfl (fun _ => rfl) (fun _ _ _ => rfl) (fun _ => rfl) t d).trans rfl

theorem before2_1 (t : Fin cfg2.N) (d) : (dat2 V c).before 1 t d = iblk2 V c 1 t :=
  (Dat.before_in_eq_fetched _ 1 rfl (fun _ => rfl) (fun _ _ _ => rfl) (fun _ => rfl) t d).trans rfl

/-- The running sums are one step from zero at the first point, from what the sums' buffers hold at a later one. -/
theorem acc2_eq (t : Fin cfg2.N) (d2 d3) :
    acc2 V c t.val t.isLt = step2 (xb2 V c t) (gb2 V c t)
      (if cond2_0 (grid2.coords t) then k2_pay2 else (dat2 V c).before 2 t d2,
       if cond2_0 (grid2.coords t) then k2_pay3 else (dat2 V c).before 3 t d3) := by
  by_cases hc : cond2_0 (grid2.coords t)
  · rw [if_pos hc, if_pos hc]
    have h0 := (hcond2_0 t).mp hc
    obtain ⟨_, _⟩ := t; subst h0; rfl
  · have h0 := mt (hcond2_0 t).mpr hc
    have hN : t.val < 27 := t.isLt.trans_eq N_2
    rw [if_neg hc, if_neg hc,
      Dat.before_out_kept _ 2 rfl t h0 (Bool.eq_false_iff.mpr (mt (flush2_2 _).mp (by dsimp only; omega))) (fun _ => rfl) (fun _ _ => rfl),
      Dat.before_out_kept _ 3 rfl t h0 (Bool.eq_false_iff.mpr (mt (flush2_3 _).mp (by dsimp only; omega))) (fun _ => rfl) (fun _ _ => rfl)]
    obtain ⟨_ | n, hn⟩ := t
    · cases h0 rfl
    · rfl

theorem body_obligation2 : BodyObligation (dat2 (F := F) V c) (defs₀ (F := F)) Variants.none () Set.univ := fun t => by
  rw [bigSep_W2, bigSep_W2]
  dsimp only
  iintro ⟨HΦ, Ho, ⟨%d0, H0⟩, ⟨%d1, H1⟩, ⟨%d2, H2⟩, ⟨%d3, H3⟩⟩
  iapply kernelRun2
  unfold bufs2
  iframe H0 H1 H2 H3
  iintro ⟨H0, H1, H2, H3⟩
  rw [before2_0, before2_1, after2_0, after2_1, after2_2, after2_3, acc2_eq V c t d2 d3]
  dsimp only [step2]
  iframe
  istop
  exact .rfl

end Cert.Kernel.Neg

end
-- ==== Proof.K.Run.lean ====
import proofs.«168589_j44040594653637_1_alg».proof.Proof.K.Boundaries
import proofs.«168589_j44040594653637_1_alg».proof.Proof.K.NegBody1
import proofs.«168589_j44040594653637_1_alg».proof.Proof.K.NegBody2
import Idealize.ShloMosaic.Lib.Pipeline.RegionsLoop
import Idealize.ShloMosaic.Lib.Pipeline.FrameSuffix

noncomputable section

namespace Cert.Kernel.Neg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev noPairs : GSem nD τ sig → Finset Unit := fun _ => ∅

abbrev noLevel : GSem nD τ sig → Unit → ℕ := fun _ _ => 0

abbrev Side (c : Dev nD) : sProp 𝕄 :=
  iprop((∃ r, prngReg c r) ∗ ∃ D, owes c 0 D)

abbrev AtB (W : Vals F) (c : Dev nD) : sProp 𝕄 :=
  iprop(StableHlo.held c (Pipeline.ucRefs τ sig) (W c) ∗ Side c)

abbrev rd (W : Vals F) : Bufs F :=
  fun c b => W c b

theorem held_eq (W : Vals F) (c : Dev nD) :
    (unscopedBufs c (rd W c) : sProp 𝕄) = StableHlo.held c (Pipeline.ucRefs τ sig) (W c) := Pipeline.unscopedBufs_held c (W c)

abbrev stretch (ops : List (HloOp τ sig (Elt F))) (hsub : ops.Forall fun op => op.bufs ⊆ StableHlo.tcRefs τ sig)
    (W : Vals F)
    (hnew : ops.Forall fun op => op.fresh = ∅ := by repeat' (first | exact rfl | refine ⟨?_, ?_⟩)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (List.forall_iff_forall_mem.mp hnew) W Side

set_option backward.isDefEq.respectTransparency.types false in
/-- A kernel region between two boundary valuations: its arrays are cut out of the held buffers on entry and glued back on exit. -/
def pass (p : Fin 3) (lf : Pipeline.LaunchFacts (nD := nD) (τ := τ) cfgs p)
    (Win Wout : Vals F)
    (hbody : ∀ c, BodyObligation (pdats m ρ p c) (defs₀ (F := F)) Variants.none () Set.univ)
    (hF : ∀ c w, Wout c (Proc.devRef .tc (Pipeline.arrRef (cfgs p).spec w)) = (pdats m ρ p c).arrAt w (cfgs p).N)
    (hne : ∀ c (b : Ref sig .tc), (∀ w, Pipeline.arrRef (cfgs p).spec w ≠ b) → Wout c (Proc.devRef .tc b) = Win c (Proc.devRef .tc b))
    (hA : ∀ c w, (pdats m ρ p c).A w = rd Win c (Pipeline.arrRef (cfgs p).spec w) := by intros; rfl)
    (hΦ : ∀ c t, (pdats m ρ p c).Φ t = Pipeline.ΦA (cfgs p).spec c := by intros; rfl)
    (hq : ∀ c w, (pdats m ρ p c).q w = fullShare := by intros; rfl)
    (howed : ∀ c t, (pdats m ρ p c).owed t = 0 := by intros; rfl)
    (hrec : ∀ c t, (pdats m ρ p c).recorded t = Set.univ := by intros; rfl) :
    Pipeline.RegionSeg (pcfgs (F := F)) adm (pdats m ρ) () defs₀ Variants.none noPairs noLevel p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noPairs noLevel p howed
  pre := AtB Win
  post := AtB Wout
  X c := iprop(∃ r, prngReg c r)
  Y c := iprop(∃ r, prngReg c r)
  Z c := Pipeline.unscopedRest (cfgs p).spec c (rd Win c)
  hentry c := by
    rw [Pipeline.ownSems0_none]
    have hcut := Pipeline.arrays_of_unscopedBufs (p := p) (pcfgs (F := F)) adm (pdats m ρ) lf.win lf.arr_whole c
      ((pdats m ρ p c).share_full (hq c)) (rd Win c) (hA c)
    rw [held_eq] at hcut
    unfold Pipeline.Dat.owesAt Pipeline.owesWithin
    rw [howed c 0]
    iintro ⟨⟨Hbufs, Hreg, %D, Hled⟩, -, -⟩
    icases hcut $$ Hbufs with ⟨Harr, Hoff⟩
    imodintro
    iframe Harr Hreg Hoff
    isplitr
    · unfold Pipeline.prefHeld
      rw [show (Finset.univ : Finset (Fin 0)) = ∅ from rfl, BI.bigSep_empty]
      iempintro
    iexists D; iframe; ipureintro
    exact fun x _ => .inl (by rw [hrec]; trivial)
  hin c := by
    rw [hΦ c 0]; unfold Pipeline.ΦA
    iintro ⟨Hreg, -, Hscr⟩
    iframe
  hout c := by
    rw [Pipeline.ownSems0_none, hΦ c (Fin.last _)]; unfold Pipeline.ΦA
    iintro ⟨Hscr, Hreg⟩
    iframe
    iempintro
  hexit c := by
    have hglue := Pipeline.unscopedBufs_of_arrays (p := p) (pcfgs (F := F)) adm
      lf.win lf.arr_whole c (pdats m ρ) ((pdats m ρ p c).share_full (hq c))
      (rd Win c) (rd Wout c) ((pdats m ρ p c).arrAt · (cfgs p).N) (fun w => (hF c w).symm)
      fun b hb => hne c b fun w e => hb (Finset.mem_image.mpr ⟨w, Finset.mem_univ _, e⟩)
    rw [held_eq] at hglue
    unfold Pipeline.Dat.owesAt Pipeline.owesWithin
    rw [howed c]
    iintro ⟨Harr, ⟨%D, -, Hled⟩, Hreg, Hoff⟩
    imodintro
    isplitl [Harr Hoff]
    · iapply hglue; iframe
    isplitl [Hreg]; · iexact Hreg
    iexists D; iexact Hled

/-- @main as its host stretches and three kernel regions, in order. -/
abbrev items : List (Pipeline.Seg (pcfgs (F := F)) adm (pdats m ρ) () defs₀ Variants.none noPairs noLevel) :=
  [ .host (stretch hostOps0 hostOps0_sub (W0 m ρ)),
    .region (pass m ρ 0 launch0 (W1 m ρ) (W2 m ρ) (body_obligation0 (V1 m ρ)) (W2_arr m ρ) (W2_of_ne m ρ)),
    .host (stretch hostOps1 hostOps1_sub (W2 m ρ)),
    .host (stretch hostOps1_1 hostOps1_1_sub (W3 m ρ)),
    .host (stretch hostOps1_2 hostOps1_2_sub (W4 m ρ)),
    .host (stretch hostOps1_3 hostOps1_3_sub (W5 m ρ)),
    .host (stretch hostOps1_4 hostOps1_4_sub (W6 m ρ)),
    .host (stretch hostOps1_5 hostOps1_5_sub (W7 m ρ)),
    .host (stretch hostOps1_6 hostOps1_6_sub (W8 m ρ)),
    .region (pass m ρ 1 launch1 (W9 m ρ) (W10 m ρ) (body_obligation1 (V9 m ρ)) (W10_arr m ρ) (W10_of_ne m ρ)),
    .host (stretch hostOps2 hostOps2_sub (W10 m ρ)),
    .host (stretch hostOps2_1 hostOps2_1_sub (W11 m ρ)),
    .host (stretch hostOps2_2 hostOps2_2_sub (W12 m ρ)),
    .host (stretch hostOps2_3 hostOps2_3_sub (W13 m ρ)),
    .host (stretch hostOps2_4 hostOps2_4_sub (W14 m ρ)),
    .host (stretch hostOps2_5 hostOps2_5_sub (W15 m ρ)),
    .host (stretch hostOps2_6 hostOps2_6_sub (W16 m ρ)),
    .region (pass m ρ 2 launch2 (W17 m ρ) (W18 m ρ) (body_obligation2 (V17 m ρ)) (W18_arr m ρ) (W18_of_ne m ρ)),
    .host (stretch hostOps3 hostOps3_sub (W18 m ρ)),
    .host (stretch hostOps3_1 hostOps3_1_sub (W19 m ρ)),
    .host (stretch hostOps3_2 hostOps3_2_sub (W20 m ρ)),
    .host (stretch hostOps3_3 hostOps3_3_sub (W21 m ρ)),
    .host (stretch hostOps3_4 hostOps3_4_sub (W22 m ρ)),
    .host (stretch hostOps3_5 hostOps3_5_sub (W23 m ρ)),
    .host (stretch hostOps3_6 hostOps3_6_sub (W24 m ρ)) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W25 m ρ c b) :=
  Pipeline.θ_run_regions_kit _ _ _ _ cellOf_inj emb₁ _ _ _ _ _ _ _ (items m ρ)
    (fun c Q => by rw [(main_chain c).trans (by chain_rfl : _ = Pipeline.Seg.run (items m ρ))])
    (by simp only [items, Pipeline.Seg.pipes_host, Pipeline.Seg.pipes_region, Pipeline.Seg.pipes_nil]; decide)
    (O₀ := 0) (hL := fun _ _ => rfl) (G := fun _ => BI.emp)
    (u₀ := _)
    (hu₀ := by
      rw [BI.bigSep_emp_const]
      iintro H
      imodintro
      isplitl [H]
      · istop; exact .rfl
      iempintro)
    (T₀ := AtB (W0 m ρ))
    (Tₙ := fun c => iprop(StableHlo.held c (Pipeline.ucRefs τ sig) (W25 m ρ c) ∗ ∃ r, prngReg c r))
    (hch := by
      repeat refine ⟨fun _ => .rfl, ?_⟩
      exact fun _ => sep_assoc.2)
    (hinit := by
      refine Pipeline.initEach noPairs noLevel fun c => ?_
      rw [held_eq (W0 m ρ)]
      iintro ⟨⟨Hbufs, -, Hled, -, Hreg, -⟩, -⟩
      imodintro
      isplitl [Hbufs]; · iexact Hbufs
      isplitl [Hreg] <;> iexists _ <;> iassumption)
    (QY := _)
    (hfin := fun c s' => by
      iintro ⟨⟨Hbufs, -⟩, Hstate⟩
      unfold StableHlo.held
      imodintro
      iapply (pointsTo_read_all (Pipeline.ucRefs τ sig) (fun b => (((c : Thread nD τ)).1, b)) (W25 m ρ c) s')
      iframe)
    (hQ := fun _ h => h)

end Cert.Kernel.Neg

end
-- ==== Proof.K.Args.lean ====
import proofs.«168589_j44040594653637_1_alg».proof.Proof.K.Boundaries

noncomputable section

namespace Cert.Kernel.Neg

open Idealize.ShloMosaic Idealize.ShloMosaic.TcCoe
open Idealize.SL Idealize.SL.Sem
open Cert.Kernel Cert.Kernel.Gen Cert.Kernel.Facts₀ Cert.Kernel.Facts
open Idealize.ShloMosaic.Pipeline (Dat)

variable {F : FTy → Type} [FloatOps F]

abbrev argRefs : List (Ref sig .tc) :=
  [main_arg0, main_arg1, main_arg2, main_arg3, main_arg4, main_arg5, main_arg6, main_arg7, main_arg8]

/-- A host operation keeps the references `rs`: it writes none of them. -/
abbrev Keeps (rs : List (Ref sig .tc)) (op : HloOp τ sig (Elt F)) : Prop :=
  ∀ y : Ref sig .tc, Proc.devRef (τ := τ) .tc y ∈ op.writes → y ∉ rs

theorem keeps_of_single {rs : List (Ref sig .tc)} {op : HloOp τ sig (Elt F)} {y₀ : Ref sig .tc}
    (hw : op.writes = {Proc.devRef (τ := τ) .tc y₀}) (h : y₀ ∉ rs) : Keeps rs op := by
  intro y hy
  rw [hw, Finset.mem_singleton] at hy
  exact Proc.devRef_injective _ hy ▸ h

/-- A stretch whose operations each write one buffer outside `rs` (the list is walked once) leaves `rs` as they were. -/
theorem after_of_keeps {rs : List (Ref sig .tc)} (ops : List (HloOp τ sig (Elt F))) (V : Valuation τ sig (Elt F))
    {r : Ref sig .tc} (hr : r ∈ rs)
    (h : ops.Forall (Keeps rs) := by repeat' (first | exact keeps_of_single rfl (by decide) | apply And.intro)) :
    StableHlo.after ops V (Proc.devRef .tc r) = V (Proc.devRef .tc r) :=
  StableHlo.after_of_forall_not_mem ops V fun op hop hb =>
    (List.forall_iff_forall_mem.mp h) op hop r hb hr

theorem region0_spares : ∀ r ∈ argRefs, ∀ w, Pipeline.arrRef spec0 w ≠ r := by decide
theorem region1_spares : ∀ r ∈ argRefs, ∀ w, Pipeline.arrRef spec1 w ≠ r := by decide
theorem region2_spares : ∀ r ∈ argRefs, ∀ w, Pipeline.arrRef spec2 w ≠ r := by decide

variable (m : (ℓ : Loc nD τ sig) → Buf (Elt F) ℓ) (ρ : Dev nD → PrngReg)

/-- No item of @main writes an argument: boundary by boundary its contents are the launch memory's. -/
abbrev Arg (W : Vals F) : Prop :=
  ∀ (c : Dev nD) (r : Ref sig .tc), r ∈ argRefs → W c (Proc.devRef .tc r) = m ((c : Thread nD τ).loc r)

/-- One more stretch that writes no argument. -/
theorem Arg.step {W : Vals F} (h : Arg m W) (ops : List (HloOp τ sig (Elt F)))
    (hk : ops.Forall (Keeps argRefs) := by repeat' (first | exact keeps_of_single rfl (by decide) | apply And.intro)) :
    Arg m fun c => StableHlo.after ops (W c) :=
  fun c r hr => (after_of_keeps ops _ hr hk).trans (h c r hr)

theorem W2_arg : Arg m (W2 m ρ) := fun c r hr =>
  (W2_of_ne m ρ c r (region0_spares r hr)).trans (after_of_keeps hostOps0 _ hr)
set_option maxHeartbeats 4000000 in
theorem W8_arg : Arg m (W8 m ρ) :=
  ((((((W2_arg m ρ).step m hostOps1).step m hostOps1_1).step m hostOps1_2).step m hostOps1_3).step m hostOps1_4).step m hostOps1_5
theorem W10_arg : Arg m (W10 m ρ) := fun c r hr =>
  (W10_of_ne m ρ c r (region1_spares r hr)).trans (((W8_arg m ρ).step m hostOps1_6) c r hr)
set_option maxHeartbeats 4000000 in
theorem W16_arg : Arg m (W16 m ρ) :=
  ((((((W10_arg m ρ).step m hostOps2).step m hostOps2_1).step m hostOps2_2).step m hostOps2_3).step m hostOps2_4).step m hostOps2_5
theorem W18_arg : Arg m (W18 m ρ) := fun c r hr =>
  (W18_of_ne m ρ c r (region2_spares r hr)).trans (((W16_arg m ρ).step m hostOps2_6) c r hr)
set_option maxHeartbeats 4000000 in
theorem W25_arg : Arg m (W25 m ρ) :=
  (((((((W18_arg m ρ).step m hostOps3).step m hostOps3_1).step m hostOps3_2).step m hostOps3_3).step m hostOps3_4).step m hostOps3_5).step m hostOps3_6

end Cert.Kernel.Neg

end
-- ==== Proof.K.Frame.lean ====
import proofs.«168589_j44040594653637_1_alg».proof.Proof.K.Run
import proofs.«168589_j44040594653637_1_alg».proof.Proof.K.Args

noncomputable section

namespace Cert.Kernel.Neg

open Idealize.ShloMosaic Idealize.ShloMosaic.TcCoe
open Idealize.SL Idealize.SL.Sem
open Cert.Kernel Cert.Kernel.Gen Cert.Kernel.Facts₀ Cert.Kernel.Facts

variable {F : FTy → Type} [FloatOps F]
variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Nine (P : Ref sig .tc → Prop) : Prop :=
  P main_arg0 ∧ P main_arg1 ∧ P main_arg2 ∧ P main_arg3 ∧ P main_arg4 ∧ P main_arg5 ∧ P main_arg6 ∧ P main_arg7 ∧ P main_arg8

theorem args_unscoped : ∀ r ∈ argRefs, ¬ (Proc.devRef .tc r : DevRef τ sig).isScoped := by decide

/-- The last boundary read at the nine arguments, which no item writes: the launch memory. -/
theorem kept {mem : (ℓ : Loc nD τ sig) → Buf (Elt F) ℓ} (c : Dev nD)
    (h : ∀ b ∈ Pipeline.ucRefs τ sig, mem ((c : Thread nD τ).1, b) = W25 m ρ c b) :
    Nine fun r => mem ((c.tc : Thread nD τ).loc r) = m ((c.tc : Thread nD τ).loc r) :=
  have k (r : Ref sig .tc) (hr : r ∈ argRefs) : mem ((c.tc : Thread nD τ).loc r) = m ((c.tc : Thread nD τ).loc r) :=
    (h _ (mem_uc r (args_unscoped r hr))).trans (W25_arg m ρ c r hr)
  ⟨k main_arg0 (by decide), k main_arg1 (by decide), k main_arg2 (by decide), k main_arg3 (by decide), k main_arg4 (by decide),
    k main_arg5 (by decide), k main_arg6 (by decide), k main_arg7 (by decide), k main_arg8 (by decide)⟩

end Cert.Kernel.Neg

end
-- ==== Proof.KI.Neg0.lean ====
import proofs.«168589_j44040594653637_1_alg».proof.Proof.Gen.KernelIdeal.Launch
import proofs.«168589_j44040594653637_1_alg».proof.Proof.Gen.KernelIdeal.Skeleton
import proofs.«168589_j44040594653637_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Neg

open Idealize.ShloMosaic Idealize.ShloMosaic.TcCoe Idealize.SL Idealize.SL.RA
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xb0 (c : Dev nD) (t : Fin cfg0.N) : Vec F S4096x128 .f32 := iblk0 V c 0 t
abbrev gb0 (c : Dev nD) (t : Fin cfg0.N) : Vec F S4096x128 .f32 := iblk0 V c 1 t

def step0 (x g : Vec F S4096x128 .f32) (p : Vec F S1x1 .f32 × Vec F S1x1 .f32) : Vec F S1x1 .f32 × Vec F S1x1 .f32 :=
  (k0_pay6 x g p.1, k0_pay1 (k0_pay5 x g) (k0_pay7 p.2))

def acc0 (c : Dev nD) : (n : ℕ) → n < cfg0.N → Vec F S1x1 .f32 × Vec F S1x1 .f32
  | 0, hn => step0 (xb0 V c ⟨0, hn⟩) (gb0 V c ⟨0, hn⟩) (k0_pay2, k0_pay3)
  | n + 1, hn => step0 (xb0 V c ⟨n + 1, hn⟩) (gb0 V c ⟨n + 1, hn⟩) (acc0 c n (Nat.lt_of_succ_lt hn))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ _ := Pipeline.ΦA spec0 c
  q _ := fullShare
  owed _ := 0

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = (acc0 V c t.val t.isLt).1 := rfl
theorem after0_3 (c : Dev nD) (t : Fin cfg0.N) : (dat0 V c).after 3 t = (acc0 V c t.val t.isLt).2 := rfl

end Cert.KernelIdeal.Neg

end
-- ==== Proof.KI.Neg1.lean ====
import proofs.«168589_j44040594653637_1_alg».proof.Proof.Gen.KernelIdeal.Launch
import proofs.«168589_j44040594653637_1_alg».proof.Proof.Gen.KernelIdeal.Skeleton
import proofs.«168589_j44040594653637_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Neg

open Idealize.ShloMosaic Idealize.ShloMosaic.TcCoe Idealize.SL Idealize.SL.RA
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xb1 (c : Dev nD) (t : Fin cfg1.N) : Vec F S512x128 .f32 := iblk1 V c 0 t
abbrev gb1 (c : Dev nD) (t : Fin cfg1.N) : Vec F S512x128 .f32 := iblk1 V c 1 t

def step1 (x g : Vec F S512x128 .f32) (p : Vec F S1x1 .f32 × Vec F S1x1 .f32) : Vec F S1x1 .f32 × Vec F S1x1 .f32 :=
  (k1_pay6 x g p.1, k1_pay1 (k1_pay5 x g) (k1_pay7 p.2))

def acc1 (c : Dev nD) : (n : ℕ) → n < cfg1.N → Vec F S1x1 .f32 × Vec F S1x1 .f32
  | 0, hn => step1 (xb1 V c ⟨0, hn⟩) (gb1 V c ⟨0, hn⟩) (k1_pay2, k1_pay3)
  | n + 1, hn => step1 (xb1 V c ⟨n + 1, hn⟩) (gb1 V c ⟨n + 1, hn⟩) (acc1 c n (Nat.lt_of_succ_lt hn))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (acc1 V c t.val t.isLt).1
    | ⟨3, _⟩ => (acc1 V c t.val t.isLt).2
  Φ _ := Pipeline.ΦA spec1 c
  q _ := fullShare
  owed _ := 0

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = (acc1 V c t.val t.isLt).1 := rfl
theorem after1_3 (c : Dev nD) (t : Fin cfg1.N) : (dat1 V c).after 3 t = (acc1 V c t.val t.isLt).2 := rfl

end Cert.KernelIdeal.Neg

end
-- ==== Proof.KI.Neg2.lean ====
import proofs.«168589_j44040594653637_1_alg».proof.Proof.Gen.KernelIdeal.Launch
import proofs.«168589_j44040594653637_1_alg».proof.Proof.Gen.KernelIdeal.Skeleton
import proofs.«168589_j44040594653637_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Neg

open Idealize.ShloMosaic Idealize.ShloMosaic.TcCoe Idealize.SL Idealize.SL.RA
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xb2 (c : Dev nD) (t : Fin cfg2.N) : Vec F S64x128 .f32 := iblk2 V c 0 t
abbrev gb2 (c : Dev nD) (t : Fin cfg2.N) : Vec F S64x128 .f32 := iblk2 V c 1 t

def step2 (x g : Vec F S64x128 .f32) (p : Vec F S1x1 .f32 × Vec F S1x1 .f32) : Vec F S1x1 .f32 × Vec F S1x1 .f32 :=
  (k2_pay6 x g p.1, k2_pay1 (k2_pay5 x g) (k2_pay7 p.2))

def acc2 (c : Dev nD) : (n : ℕ) → n < cfg2.N → Vec F S1x1 .f32 × Vec F S1x1 .f32
  | 0, hn => step2 (xb2 V c ⟨0, hn⟩) (gb2 V c ⟨0, hn⟩) (k2_pay2, k2_pay3)
  | n + 1, hn => step2 (xb2 V c ⟨n + 1, hn⟩) (gb2 V c ⟨n + 1, hn⟩) (acc2 c n (Nat.lt_of_succ_lt hn))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (acc2 V c t.val t.isLt).1
    | ⟨3, _⟩ => (acc2 V c t.val t.isLt).2
  Φ _ := Pipeline.ΦA spec2 c
  q _ := fullShare
  owed _ := 0

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = (acc2 V c t.val t.isLt).1 := rfl
theorem after2_3 (c : Dev nD) (t : Fin cfg2.N) : (dat2 V c).after 3 t = (acc2 V c t.val t.isLt).2 := rfl

end Cert.KernelIdeal.Neg

end
-- ==== Proof.KI.Boundaries.lean ====
import proofs.«168589_j44040594653637_1_alg».proof.Proof.KI.Neg0
import proofs.«168589_j44040594653637_1_alg».proof.Proof.KI.Neg1
import proofs.«168589_j44040594653637_1_alg».proof.Proof.KI.Neg2
import Idealize.ShloMosaic.Lib.Pipeline.RegionsLoop
import Idealize.ShloMosaic.Lib.Pipeline.FrameSuffix

noncomputable section

namespace Cert.KernelIdeal.Neg

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
/-- A boundary's valuation on every core; the same, read at the TensorCore's references. -/
abbrev Vals (F : FTy → Type) := Dev nD → Valuation τ sig (Elt F)
abbrev Bufs (F : FTy → Type) := (c : Dev nD) → (b : Ref sig .tc) → Buf (Elt F) ((c : Thread nD τ).loc b)

variable (m : (ℓ : Loc nD τ sig) → Buf (Elt F) ℓ) (ρ : Dev nD → PrngReg)

abbrev W0 : Vals F := fun c b => (s₀ m ρ).mem ((c : Dev nD), b)
abbrev W1 : Vals F := fun c => StableHlo.after hostOps0 (W0 m ρ c)
abbrev V1 : Bufs F := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev W3 : Vals F := fun c => StableHlo.after hostOps1 (W2 m ρ c)
abbrev W4 : Vals F := fun c => StableHlo.after hostOps1_1 (W3 m ρ c)
abbrev W5 : Vals F := fun c => StableHlo.after hostOps1_2 (W4 m ρ c)
abbrev W6 : Vals F := fun c => StableHlo.after hostOps1_3 (W5 m ρ c)
abbrev W7 : Vals F := fun c => StableHlo.after hostOps1_4 (W6 m ρ c)
abbrev W8 : Vals F := fun c => StableHlo.after hostOps1_5 (W7 m ρ c)
abbrev W9 : Vals F := fun c => StableHlo.after hostOps1_6 (W8 m ρ c)
abbrev V9 : Bufs F := fun c b => W9 m ρ c b
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N :=
  Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) :=
  Pipeline.withArrays_of_ne spec1 c _ _ b hb
abbrev W11 : Vals F := fun c => StableHlo.after hostOps2 (W10 m ρ c)
abbrev W12 : Vals F := fun c => StableHlo.after hostOps2_1 (W11 m ρ c)
abbrev W13 : Vals F := fun c => StableHlo.after hostOps2_2 (W12 m ρ c)
abbrev W14 : Vals F := fun c => StableHlo.after hostOps2_3 (W13 m ρ c)
abbrev W15 : Vals F := fun c => StableHlo.after hostOps2_4 (W14 m ρ c)
abbrev W16 : Vals F := fun c => StableHlo.after hostOps2_5 (W15 m ρ c)
abbrev W17 : Vals F := fun c => StableHlo.after hostOps2_6 (W16 m ρ c)
abbrev V17 : Bufs F := fun c b => W17 m ρ c b
def W18 (c : Dev nD) : Valuation τ sig (Elt F) :=
  Pipeline.withArrays spec2 c (W17 m ρ c) fun w => (dat2 (V17 m ρ) c).arrAt w cfg2.N
theorem W18_arr (c : Dev nD) (w : Fin cfg2.W) :
    W18 m ρ c (Proc.devRef .tc (Pipeline.arrRef spec2 w)) = (dat2 (V17 m ρ) c).arrAt w cfg2.N :=
  Pipeline.withArrays_arr spec2 launch2.win.arr_inj c _ _ w
theorem W18_of_ne (c : Dev nD) (b : Ref sig .tc) (hb : ∀ w, Pipeline.arrRef spec2 w ≠ b) :
    W18 m ρ c (Proc.devRef .tc b) = W17 m ρ c (Proc.devRef .tc b) :=
  Pipeline.withArrays_of_ne spec2 c _ _ b hb
abbrev W19 : Vals F := fun c => StableHlo.after hostOps3 (W18 m ρ c)
abbrev W20 : Vals F := fun c => StableHlo.after hostOps3_1 (W19 m ρ c)
abbrev W21 : Vals F := fun c => StableHlo.after hostOps3_2 (W20 m ρ c)
abbrev W22 : Vals F := fun c => StableHlo.after hostOps3_3 (W21 m ρ c)
abbrev W23 : Vals F := fun c => StableHlo.after hostOps3_4 (W22 m ρ c)
abbrev W24 : Vals F := fun c => StableHlo.after hostOps3_5 (W23 m ρ c)
abbrev W25 : Vals F := fun c => StableHlo.after hostOps3_6 (W24 m ρ c)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V9 m ρ) c
  | ⟨2, _⟩ => fun c => dat2 (V17 m ρ) c

end Cert.KernelIdeal.Neg

end
-- ==== Proof.KI.NegBody0.lean ====
import proofs.«168589_j44040594653637_1_alg».proof.Proof.KI.Neg0
import Idealize.ShloMosaic.Lib.Pipeline.Value

noncomputable section

namespace Cert.KernelIdeal.Neg

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

theorem hz0 : (![0, 0] : Fin 2 → Nat) = fun _ => 0 := by decide

/-- A last store through the whole rectangle decides what is read, whatever was stored before. -/
theorem last0 (v : View sig .tc .vmem S1x1 .f32) (f) (w : Vec F S1x1 .f32) (L) :
    v.read (Elt F) (v.writes (Elt F) f (⟨Rect.unit ![0, 0] S1x1.size inb_S1x1_S1x1_0_0, w⟩ :: L)) = w :=
  (View.read_writes_eq_canon _ _ _ fun y => ⟨_, List.mem_cons_self, View.mem_set_unit_zero hz0 inb_S1x1_S1x1_0_0 y⟩).trans
    (View.canon_cons_unit_zero hz0 _ w L)

/-- The condition of the body's one branch: is the grid coordinate zero? -/
abbrev cond0_0 (i : grid0.Coords) : Prop := Scalar.cmpi .ne (Scalar.extui (Scalar.cmpi .eq (BitVec.ofNat 32 (i 0).val) 0#32)) 0#32 = 1#1

theorem hcond0_0 : ∀ t : Fin cfg0.N, cond0_0 (grid0.coords t) ↔ t.val = 0 := by decide +kernel

variable (V : (c : Dev nD) → (b : Ref sig .tc) → Buf (Elt F) ((c : Thread nD τ).loc b)) (c : Dev nD)
  (a1 a2 : Memref sig .tc .vmem S4096x128 .f32) (a3 a4 : Memref sig .tc .vmem S1x1 .f32)

/-- The four buffers the body is called on, at given contents. -/
def bufs0 (x0 x1 : Vec F S4096x128 .f32) (y2 y3 : Vec F S1x1 .f32) : sProp 𝕄 :=
  iprop(owns c a1 fullShare x0 ∗ owns c a2 fullShare x1 ∗ owns c a3 fullShare y2 ∗ owns c a4 fullShare y3)

/-- The body returns the inputs as read and each sum updated: from the zero it first stores where the branch is taken, else from what the buffer held. -/
theorem kernelRun0 (i : grid0.Coords) (h1 : a1.IsWhole) (h2 : a2.IsWhole) (h3 : a3.IsWhole) (h4 : a4.IsWhole)
    (x0 x1 : Vec F S4096x128 .f32) (d2 d3 : Vec F S1x1 .f32) (E : Set ℕ) (K : PUnit → sProp 𝕄) :
    iprop(bufs0 c a1 a2 a3 a4 x0 x1 d2 d3
        ∗ (bufs0 c a1 a2 a3 a4 x0 x1 (k0_pay6 x0 x1 (if cond0_0 i then k0_pay2 else d2))
            (k0_pay1 (k0_pay5 x0 x1) (k0_pay7 (if cond0_0 i then k0_pay3 else d3))) -∗ K ⟨⟩))
      ⊢ wp frame (wpE (defs₀ (F := F)) Variants.none c none) E (cc0__neg_kernel i a1 h1 a2 h2 a3 h3 a4 h4) K := by
  rw [cc0__neg_kernel_eq_skeleton, cc0__neg_kernel_skel, k0_part1_eq_skeleton]
  unfold bufs0 owns
  iintro ⟨⟨⟨%f0, %hf0, H0⟩, ⟨%f1, %hf1, H1⟩, ⟨%f2, %hf2, H2⟩, ⟨%f3, %hf3, H3⟩⟩, Hk⟩
  subst hf0 hf1 hf2 hf3
  by_cases hc : cond0_0 i <;> [rw [if_pos hc, if_pos hc]; rw [if_neg hc, if_neg hc]] <;>
  · sl_exec (disch := exact hc)
    sl_step
    iapply Hk
    isplitl [H0]; rotate_left; isplitl [H1]; rotate_left; isplitl [H2]
    all_goals
      iexists _; isplitr; swap; iassumption
      ipureintro
      first
      | rw [last0]; sl_unfold_words
        simp only [View.readAt_eq_ld, View.ld_unit_zero (S := S4096x128) hz0, View.ld_unit_zero (S := S1x1) hz0,
          View.readCov_unit_zero (S := S1x1) _ hz0]
      | rfl

theorem before0_0 (t : Fin cfg0.N) (d) : (dat0 V c).before 0 t d = iblk0 V c 0 t :=
  (Dat.before_in_eq_fetched _ 0 rfl (fun _ => rfl) (fun _ _ _ => rfl) (fun _ => rfl) t d).trans rfl

theorem before0_1 (t : Fin cfg0.N) (d) : (dat0 V c).before 1 t d = iblk0 V c 1 t :=
  (Dat.before_in_eq_fetched _ 1 rfl (fun _ => rfl) (fun _ _ _ => rfl) (fun _ => rfl) t d).trans rfl

/-- The running sums are one step from zero at the first point, from what the sums' buffers hold at a later one. -/
theorem acc0_eq (t : Fin cfg0.N) (d2 d3) :
    acc0 V c t.val t.isLt = step0 (xb0 V c t) (gb0 V c t)
      (if cond0_0 (grid0.coords t) then k0_pay2 else (dat0 V c).before 2 t d2,
       if cond0_0 (grid0.coords t) then k0_pay3 else (dat0 V c).before 3 t d3) := by
  by_cases hc : cond0_0 (grid0.coords t)
  · rw [if_pos hc, if_pos hc]
    have h0 := (hcond0_0 t).mp hc
    obtain ⟨_, _⟩ := t; subst h0; rfl
  · have h0 := mt (hcond0_0 t).mpr hc
    have hN : t.val < 27 := t.isLt.trans_eq N_0
    rw [if_neg hc, if_neg hc,
      Dat.before_out_kept _ 2 rfl t h0 (Bool.eq_false_iff.mpr (mt (flush0_2 _).mp (by dsimp only; omega))) (fun _ => rfl) (fun _ _ => rfl),
      Dat.before_out_kept _ 3 rfl t h0 (Bool.eq_false_iff.mpr (mt (flush0_3 _).mp (by dsimp only; omega))) (fun _ => rfl) (fun _ _ => rfl)]
    obtain ⟨_ | n, hn⟩ := t
    · cases h0 rfl
    · rfl

theorem body_obligation0 : BodyObligation (dat0 (F := F) V c) (defs₀ (F := F)) Variants.none () Set.univ := fun t => by
  rw [bigSep_W0, bigSep_W0]
  dsimp only
  iintro ⟨HΦ, Ho, ⟨%d0, H0⟩, ⟨%d1, H1⟩, ⟨%d2, H2⟩, ⟨%d3, H3⟩⟩
  iapply kernelRun0
  unfold bufs0
  iframe H0 H1 H2 H3
  iintro ⟨H0, H1, H2, H3⟩
  rw [before0_0, before0_1, after0_0, after0_1, after0_2, after0_3, acc0_eq V c t d2 d3]
  dsimp only [step0]
  iframe
  istop
  exact .rfl

end Cert.KernelIdeal.Neg

end
-- ==== Proof.KI.NegBody1.lean ====
import proofs.«168589_j44040594653637_1_alg».proof.Proof.KI.Neg1
import proofs.«168589_j44040594653637_1_alg».proof.Proof.KI.NegBody0

noncomputable section

namespace Cert.KernelIdeal.Neg

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

/-- The condition of the body's one branch: is the grid coordinate zero? -/
abbrev cond1_0 (i : grid1.Coords) : Prop := Scalar.cmpi .ne (Scalar.extui (Scalar.cmpi .eq (BitVec.ofNat 32 (i 0).val) 0#32)) 0#32 = 1#1

theorem hcond1_0 : ∀ t : Fin cfg1.N, cond1_0 (grid1.coords t) ↔ t.val = 0 := by decide +kernel

variable (V : (c : Dev nD) → (b : Ref sig .tc) → Buf (Elt F) ((c : Thread nD τ).loc b)) (c : Dev nD)
  (a1 a2 : Memref sig .tc .vmem S512x128 .f32) (a3 a4 : Memref sig .tc .vmem S1x1 .f32)

/-- The four buffers the body is called on, at given contents. -/
def bufs1 (x0 x1 : Vec F S512x128 .f32) (y2 y3 : Vec F S1x1 .f32) : sProp 𝕄 :=
  iprop(owns c a1 fullShare x0 ∗ owns c a2 fullShare x1 ∗ owns c a3 fullShare y2 ∗ owns c a4 fullShare y3)

/-- The body returns the inputs as read and each sum updated: from the zero it first stores where the branch is taken, else from what the buffer held. -/
theorem kernelRun1 (i : grid1.Coords) (h1 : a1.IsWhole) (h2 : a2.IsWhole) (h3 : a3.IsWhole) (h4 : a4.IsWhole)
    (x0 x1 : Vec F S512x128 .f32) (d2 d3 : Vec F S1x1 .f32) (E : Set ℕ) (K : PUnit → sProp 𝕄) :
    iprop(bufs1 c a1 a2 a3 a4 x0 x1 d2 d3
        ∗ (bufs1 c a1 a2 a3 a4 x0 x1 (k1_pay6 x0 x1 (if cond1_0 i then k1_pay2 else d2))
            (k1_pay1 (k1_pay5 x0 x1) (k1_pay7 (if cond1_0 i then k1_pay3 else d3))) -∗ K ⟨⟩))
      ⊢ wp frame (wpE (defs₀ (F := F)) Variants.none c none) E (cc1__neg_kernel i a1 h1 a2 h2 a3 h3 a4 h4) K := by
  rw [cc1__neg_kernel_eq_skeleton, cc1__neg_kernel_skel, k1_part1_eq_skeleton]
  unfold bufs1 owns
  iintro ⟨⟨⟨%f0, %hf0, H0⟩, ⟨%f1, %hf1, H1⟩, ⟨%f2, %hf2, H2⟩, ⟨%f3, %hf3, H3⟩⟩, Hk⟩
  subst hf0 hf1 hf2 hf3
  by_cases hc : cond1_0 i <;> [rw [if_pos hc, if_pos hc]; rw [if_neg hc, if_neg hc]] <;>
  · sl_exec (disch := exact hc)
    sl_step
    iapply Hk
    isplitl [H0]; rotate_left; isplitl [H1]; rotate_left; isplitl [H2]
    all_goals
      iexists _; isplitr; swap; iassumption
      ipureintro
      first
      | rw [last0]; sl_unfold_words
        simp only [View.readAt_eq_ld, View.ld_unit_zero (S := S512x128) hz0, View.ld_unit_zero (S := S1x1) hz0,
          View.readCov_unit_zero (S := S1x1) _ hz0]
      | rfl

theorem before1_0 (t : Fin cfg1.N) (d) : (dat1 V c).before 0 t d = iblk1 V c 0 t :=
  (Dat.before_in_eq_fetched _ 0 rfl (fun _ => rfl) (fun _ _ _ => rfl) (fun _ => rfl) t d).trans rfl

theorem before1_1 (t : Fin cfg1.N) (d) : (dat1 V c).before 1 t d = iblk1 V c 1 t :=
  (Dat.before_in_eq_fetched _ 1 rfl (fun _ => rfl) (fun _ _ _ => rfl) (fun _ => rfl) t d).trans rfl

/-- The running sums are one step from zero at the first point, from what the sums' buffers hold at a later one. -/
theorem acc1_eq (t : Fin cfg1.N) (d2 d3) :
    acc1 V c t.val t.isLt = step1 (xb1 V c t) (gb1 V c t)
      (if cond1_0 (grid1.coords t) then k1_pay2 else (dat1 V c).before 2 t d2,
       if cond1_0 (grid1.coords t) then k1_pay3 else (dat1 V c).before 3 t d3) := by
  by_cases hc : cond1_0 (grid1.coords t)
  · rw [if_pos hc, if_pos hc]
    have h0 := (hcond1_0 t).mp hc
    obtain ⟨_, _⟩ := t; subst h0; rfl
  · have h0 := mt (hcond1_0 t).mpr hc
    have hN : t.val < 27 := t.isLt.trans_eq N_1
    rw [if_neg hc, if_neg hc,
      Dat.before_out_kept _ 2 rfl t h0 (Bool.eq_false_iff.mpr (mt (flush1_2 _).mp (by dsimp only; omega))) (fun _ => rfl) (fun _ _ => rfl),
      Dat.before_out_kept _ 3 rfl t h0 (Bool.eq_false_iff.mpr (mt (flush1_3 _).mp (by dsimp only; omega))) (fun _ => rfl) (fun _ _ => rfl)]
    obtain ⟨_ | n, hn⟩ := t
    · cases h0 rfl
    · rfl

theorem body_obligation1 : BodyObligation (dat1 (F := F) V c) (defs₀ (F := F)) Variants.none () Set.univ := fun t => by
  rw [bigSep_W1, bigSep_W1]
  dsimp only
  iintro ⟨HΦ, Ho, ⟨%d0, H0⟩, ⟨%d1, H1⟩, ⟨%d2, H2⟩, ⟨%d3, H3⟩⟩
  iapply kernelRun1
  unfold bufs1
  iframe H0 H1 H2 H3
  iintro ⟨H0, H1, H2, H3⟩
  rw [before1_0, before1_1, after1_0, after1_1, after1_2, after1_3, acc1_eq V c t d2 d3]
  dsimp only [step1]
  iframe
  istop
  exact .rfl

end Cert.KernelIdeal.Neg

end
-- ==== Proof.KI.NegBody2.lean ====
import proofs.«168589_j44040594653637_1_alg».proof.Proof.KI.Neg2
import proofs.«168589_j44040594653637_1_alg».proof.Proof.KI.NegBody0

noncomputable section

namespace Cert.KernelIdeal.Neg

open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

/-- The condition of the body's one branch: is the grid coordinate zero? -/
abbrev cond2_0 (i : grid2.Coords) : Prop := Scalar.cmpi .ne (Scalar.extui (Scalar.cmpi .eq (BitVec.ofNat 32 (i 0).val) 0#32)) 0#32 = 1#1

theorem hcond2_0 : ∀ t : Fin cfg2.N, cond2_0 (grid2.coords t) ↔ t.val = 0 := by decide +kernel

variable (V : (c : Dev nD) → (b : Ref sig .tc) → Buf (Elt F) ((c : Thread nD τ).loc b)) (c : Dev nD)
  (a1 a2 : Memref sig .tc .vmem S64x128 .f32) (a3 a4 : Memref sig .tc .vmem S1x1 .f32)

/-- The four buffers the body is called on, at given contents. -/
def bufs2 (x0 x1 : Vec F S64x128 .f32) (y2 y3 : Vec F S1x1 .f32) : sProp 𝕄 :=
  iprop(owns c a1 fullShare x0 ∗ owns c a2 fullShare x1 ∗ owns c a3 fullShare y2 ∗ owns c a4 fullShare y3)

/-- The body returns the inputs as read and each sum updated: from the zero it first stores where the branch is taken, else from what the buffer held. -/
theorem kernelRun2 (i : grid2.Coords) (h1 : a1.IsWhole) (h2 : a2.IsWhole) (h3 : a3.IsWhole) (h4 : a4.IsWhole)
    (x0 x1 : Vec F S64x128 .f32) (d2 d3 : Vec F S1x1 .f32) (E : Set ℕ) (K : PUnit → sProp 𝕄) :
    iprop(bufs2 c a1 a2 a3 a4 x0 x1 d2 d3
        ∗ (bufs2 c a1 a2 a3 a4 x0 x1 (k2_pay6 x0 x1 (if cond2_0 i then k2_pay2 else d2))
            (k2_pay1 (k2_pay5 x0 x1) (k2_pay7 (if cond2_0 i then k2_pay3 else d3))) -∗ K ⟨⟩))
      ⊢ wp frame (wpE (defs₀ (F := F)) Variants.none c none) E (cc2__neg_kernel i a1 h1 a2 h2 a3 h3 a4 h4) K := by
  rw [cc2__neg_kernel_eq_skeleton, cc2__neg_kernel_skel, k2_part1_eq_skeleton]
  unfold bufs2 owns
  iintro ⟨⟨⟨%f0, %hf0, H0⟩, ⟨%f1, %hf1, H1⟩, ⟨%f2, %hf2, H2⟩, ⟨%f3, %hf3, H3⟩⟩, Hk⟩
  subst hf0 hf1 hf2 hf3
  by_cases hc : cond2_0 i <;> [rw [if_pos hc, if_pos hc]; rw [if_neg hc, if_neg hc]] <;>
  · sl_exec (disch := exact hc)
    sl_step
    iapply Hk
    isplitl [H0]; rotate_left; isplitl [H1]; rotate_left; isplitl [H2]
    all_goals
      iexists _; isplitr; swap; iassumption
      ipureintro
      first
      | rw [last0]; sl_unfold_words
        simp only [View.readAt_eq_ld, View.ld_unit_zero (S := S64x128) hz0, View.ld_unit_zero (S := S1x1) hz0,
          View.readCov_unit_zero (S := S1x1) _ hz0]
      | rfl

theorem before2_0 (t : Fin cfg2.N) (d) : (dat2 V c).before 0 t d = iblk2 V c 0 t :=
  (Dat.before_in_eq_fetched _ 0 rfl (fun _ => rfl) (fun _ _ _ => rfl) (fun _ => rfl) t d).trans rfl

theorem before2_1 (t : Fin cfg2.N) (d) : (dat2 V c).before 1 t d = iblk2 V c 1 t :=
  (Dat.before_in_eq_fetched _ 1 rfl (fun _ => rfl) (fun _ _ _ => rfl) (fun _ => rfl) t d).trans rfl

/-- The running sums are one step from zero at the first point, from what the sums' buffers hold at a later one. -/
theorem acc2_eq (t : Fin cfg2.N) (d2 d3) :
    acc2 V c t.val t.isLt = step2 (xb2 V c t) (gb2 V c t)
      (if cond2_0 (grid2.coords t) then k2_pay2 else (dat2 V c).before 2 t d2,
       if cond2_0 (grid2.coords t) then k2_pay3 else (dat2 V c).before 3 t d3) := by
  by_cases hc : cond2_0 (grid2.coords t)
  · rw [if_pos hc, if_pos hc]
    have h0 := (hcond2_0 t).mp hc
    obtain ⟨_, _⟩ := t; subst h0; rfl
  · have h0 := mt (hcond2_0 t).mpr hc
    have hN : t.val < 27 := t.isLt.trans_eq N_2
    rw [if_neg hc, if_neg hc,
      Dat.before_out_kept _ 2 rfl t h0 (Bool.eq_false_iff.mpr (mt (flush2_2 _).mp (by dsimp only; omega))) (fun _ => rfl) (fun _ _ => rfl),
      Dat.before_out_kept _ 3 rfl t h0 (Bool.eq_false_iff.mpr (mt (flush2_3 _).mp (by dsimp only; omega))) (fun _ => rfl) (fun _ _ => rfl)]
    obtain ⟨_ | n, hn⟩ := t
    · cases h0 rfl
    · rfl

theorem body_obligation2 : BodyObligation (dat2 (F := F) V c) (defs₀ (F := F)) Variants.none () Set.univ := fun t => by
  rw [bigSep_W2, bigSep_W2]
  dsimp only
  iintro ⟨HΦ, Ho, ⟨%d0, H0⟩, ⟨%d1, H1⟩, ⟨%d2, H2⟩, ⟨%d3, H3⟩⟩
  iapply kernelRun2
  unfold bufs2
  iframe H0 H1 H2 H3
  iintro ⟨H0, H1, H2, H3⟩
  rw [before2_0, before2_1, after2_0, after2_1, after2_2, after2_3, acc2_eq V c t d2 d3]
  dsimp only [step2]
  iframe
  istop
  exact .rfl

end Cert.KernelIdeal.Neg

end
-- ==== Proof.KI.Run.lean ====
import proofs.«168589_j44040594653637_1_alg».proof.Proof.KI.Boundaries
import proofs.«168589_j44040594653637_1_alg».proof.Proof.KI.NegBody1
import proofs.«168589_j44040594653637_1_alg».proof.Proof.KI.NegBody2
import Idealize.ShloMosaic.Lib.Pipeline.RegionsLoop
import Idealize.ShloMosaic.Lib.Pipeline.FrameSuffix

noncomputable section

namespace Cert.KernelIdeal.Neg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev noPairs : GSem nD τ sig → Finset Unit := fun _ => ∅

abbrev noLevel : GSem nD τ sig → Unit → ℕ := fun _ _ => 0

abbrev Side (c : Dev nD) : sProp 𝕄 :=
  iprop((∃ r, prngReg c r) ∗ ∃ D, owes c 0 D)

abbrev AtB (W : Vals F) (c : Dev nD) : sProp 𝕄 :=
  iprop(StableHlo.held c (Pipeline.ucRefs τ sig) (W c) ∗ Side c)

abbrev rd (W : Vals F) : Bufs F :=
  fun c b => W c b

theorem held_eq (W : Vals F) (c : Dev nD) :
    (unscopedBufs c (rd W c) : sProp 𝕄) = StableHlo.held c (Pipeline.ucRefs τ sig) (W c) := Pipeline.unscopedBufs_held c (W c)

abbrev stretch (ops : List (HloOp τ sig (Elt F))) (hsub : ops.Forall fun op => op.bufs ⊆ StableHlo.tcRefs τ sig)
    (W : Vals F)
    (hnew : ops.Forall fun op => op.fresh = ∅ := by repeat' (first | exact rfl | refine ⟨?_, ?_⟩)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (List.forall_iff_forall_mem.mp hnew) W Side

set_option backward.isDefEq.respectTransparency.types false in
/-- A kernel region between two boundary valuations: its arrays are cut out of the held buffers on entry and glued back on exit. -/
def pass (p : Fin 3) (lf : Pipeline.LaunchFacts (nD := nD) (τ := τ) cfgs p)
    (Win Wout : Vals F)
    (hbody : ∀ c, BodyObligation (pdats m ρ p c) (defs₀ (F := F)) Variants.none () Set.univ)
    (hF : ∀ c w, Wout c (Proc.devRef .tc (Pipeline.arrRef (cfgs p).spec w)) = (pdats m ρ p c).arrAt w (cfgs p).N)
    (hne : ∀ c (b : Ref sig .tc), (∀ w, Pipeline.arrRef (cfgs p).spec w ≠ b) → Wout c (Proc.devRef .tc b) = Win c (Proc.devRef .tc b))
    (hA : ∀ c w, (pdats m ρ p c).A w = rd Win c (Pipeline.arrRef (cfgs p).spec w) := by intros; rfl)
    (hΦ : ∀ c t, (pdats m ρ p c).Φ t = Pipeline.ΦA (cfgs p).spec c := by intros; rfl)
    (hq : ∀ c w, (pdats m ρ p c).q w = fullShare := by intros; rfl)
    (howed : ∀ c t, (pdats m ρ p c).owed t = 0 := by intros; rfl)
    (hrec : ∀ c t, (pdats m ρ p c).recorded t = Set.univ := by intros; rfl) :
    Pipeline.RegionSeg (pcfgs (F := F)) adm (pdats m ρ) () defs₀ Variants.none noPairs noLevel p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noPairs noLevel p howed
  pre := AtB Win
  post := AtB Wout
  X c := iprop(∃ r, prngReg c r)
  Y c := iprop(∃ r, prngReg c r)
  Z c := Pipeline.unscopedRest (cfgs p).spec c (rd Win c)
  hentry c := by
    rw [Pipeline.ownSems0_none]
    have hcut := Pipeline.arrays_of_unscopedBufs (p := p) (pcfgs (F := F)) adm (pdats m ρ) lf.win lf.arr_whole c
      ((pdats m ρ p c).share_full (hq c)) (rd Win c) (hA c)
    rw [held_eq] at hcut
    unfold Pipeline.Dat.owesAt Pipeline.owesWithin
    rw [howed c 0]
    iintro ⟨⟨Hbufs, Hreg, %D, Hled⟩, -, -⟩
    icases hcut $$ Hbufs with ⟨Harr, Hoff⟩
    imodintro
    iframe Harr Hreg Hoff
    isplitr
    · unfold Pipeline.prefHeld
      rw [show (Finset.univ : Finset (Fin 0)) = ∅ from rfl, BI.bigSep_empty]
      iempintro
    iexists D; iframe; ipureintro
    exact fun x _ => .inl (by rw [hrec]; trivial)
  hin c := by
    rw [hΦ c 0]; unfold Pipeline.ΦA
    iintro ⟨Hreg, -, Hscr⟩
    iframe
  hout c := by
    rw [Pipeline.ownSems0_none, hΦ c (Fin.last _)]; unfold Pipeline.ΦA
    iintro ⟨Hscr, Hreg⟩
    iframe
    iempintro
  hexit c := by
    have hglue := Pipeline.unscopedBufs_of_arrays (p := p) (pcfgs (F := F)) adm
      lf.win lf.arr_whole c (pdats m ρ) ((pdats m ρ p c).share_full (hq c))
      (rd Win c) (rd Wout c) ((pdats m ρ p c).arrAt · (cfgs p).N) (fun w => (hF c w).symm)
      fun b hb => hne c b fun w e => hb (Finset.mem_image.mpr ⟨w, Finset.mem_univ _, e⟩)
    rw [held_eq] at hglue
    unfold Pipeline.Dat.owesAt Pipeline.owesWithin
    rw [howed c]
    iintro ⟨Harr, ⟨%D, -, Hled⟩, Hreg, Hoff⟩
    imodintro
    isplitl [Harr Hoff]
    · iapply hglue; iframe
    isplitl [Hreg]; · iexact Hreg
    iexists D; iexact Hled

/-- @main as its host stretches and three kernel regions, in order. -/
abbrev items : List (Pipeline.Seg (pcfgs (F := F)) adm (pdats m ρ) () defs₀ Variants.none noPairs noLevel) :=
  [ .host (stretch hostOps0 hostOps0_sub (W0 m ρ)),
    .region (pass m ρ 0 launch0 (W1 m ρ) (W2 m ρ) (body_obligation0 (V1 m ρ)) (W2_arr m ρ) (W2_of_ne m ρ)),
    .host (stretch hostOps1 hostOps1_sub (W2 m ρ)),
    .host (stretch hostOps1_1 hostOps1_1_sub (W3 m ρ)),
    .host (stretch hostOps1_2 hostOps1_2_sub (W4 m ρ)),
    .host (stretch hostOps1_3 hostOps1_3_sub (W5 m ρ)),
    .host (stretch hostOps1_4 hostOps1_4_sub (W6 m ρ)),
    .host (stretch hostOps1_5 hostOps1_5_sub (W7 m ρ)),
    .host (stretch hostOps1_6 hostOps1_6_sub (W8 m ρ)),
    .region (pass m ρ 1 launch1 (W9 m ρ) (W10 m ρ) (body_obligation1 (V9 m ρ)) (W10_arr m ρ) (W10_of_ne m ρ)),
    .host (stretch hostOps2 hostOps2_sub (W10 m ρ)),
    .host (stretch hostOps2_1 hostOps2_1_sub (W11 m ρ)),
    .host (stretch hostOps2_2 hostOps2_2_sub (W12 m ρ)),
    .host (stretch hostOps2_3 hostOps2_3_sub (W13 m ρ)),
    .host (stretch hostOps2_4 hostOps2_4_sub (W14 m ρ)),
    .host (stretch hostOps2_5 hostOps2_5_sub (W15 m ρ)),
    .host (stretch hostOps2_6 hostOps2_6_sub (W16 m ρ)),
    .region (pass m ρ 2 launch2 (W17 m ρ) (W18 m ρ) (body_obligation2 (V17 m ρ)) (W18_arr m ρ) (W18_of_ne m ρ)),
    .host (stretch hostOps3 hostOps3_sub (W18 m ρ)),
    .host (stretch hostOps3_1 hostOps3_1_sub (W19 m ρ)),
    .host (stretch hostOps3_2 hostOps3_2_sub (W20 m ρ)),
    .host (stretch hostOps3_3 hostOps3_3_sub (W21 m ρ)),
    .host (stretch hostOps3_4 hostOps3_4_sub (W22 m ρ)),
    .host (stretch hostOps3_5 hostOps3_5_sub (W23 m ρ)),
    .host (stretch hostOps3_6 hostOps3_6_sub (W24 m ρ)) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W25 m ρ c b) :=
  Pipeline.θ_run_regions_kit _ _ _ _ cellOf_inj emb₁ _ _ _ _ _ _ _ (items m ρ)
    (fun c Q => by rw [(main_chain c).trans (by chain_rfl : _ = Pipeline.Seg.run (items m ρ))])
    (by simp only [items, Pipeline.Seg.pipes_host, Pipeline.Seg.pipes_region, Pipeline.Seg.pipes_nil]; decide)
    (O₀ := 0) (hL := fun _ _ => rfl) (G := fun _ => BI.emp)
    (u₀ := _)
    (hu₀ := by
      rw [BI.bigSep_emp_const]
      iintro H
      imodintro
      isplitl [H]
      · istop; exact .rfl
      iempintro)
    (T₀ := AtB (W0 m ρ))
    (Tₙ := fun c => iprop(StableHlo.held c (Pipeline.ucRefs τ sig) (W25 m ρ c) ∗ ∃ r, prngReg c r))
    (hch := by
      repeat refine ⟨fun _ => .rfl, ?_⟩
      exact fun _ => sep_assoc.2)
    (hinit := by
      refine Pipeline.initEach noPairs noLevel fun c => ?_
      rw [held_eq (W0 m ρ)]
      iintro ⟨⟨Hbufs, -, Hled, -, Hreg, -⟩, -⟩
      imodintro
      isplitl [Hbufs]; · iexact Hbufs
      isplitl [Hreg] <;> iexists _ <;> iassumption)
    (QY := _)
    (hfin := fun c s' => by
      iintro ⟨⟨Hbufs, -⟩, Hstate⟩
      unfold StableHlo.held
      imodintro
      iapply (pointsTo_read_all (Pipeline.ucRefs τ sig) (fun b => (((c : Thread nD τ)).1, b)) (W25 m ρ c) s')
      iframe)
    (hQ := fun _ h => h)

end Cert.KernelIdeal.Neg

end
-- ==== Proof.KI.Args.lean ====
import proofs.«168589_j44040594653637_1_alg».proof.Proof.KI.Boundaries

noncomputable section

namespace Cert.KernelIdeal.Neg

open Idealize.ShloMosaic Idealize.ShloMosaic.TcCoe
open Idealize.SL Idealize.SL.Sem
open Cert.KernelIdeal Cert.KernelIdeal.Gen Cert.KernelIdeal.Facts₀ Cert.KernelIdeal.Facts
open Idealize.ShloMosaic.Pipeline (Dat)

variable {F : FTy → Type} [FloatOps F]

abbrev argRefs : List (Ref sig .tc) :=
  [main_arg0, main_arg1, main_arg2, main_arg3, main_arg4, main_arg5, main_arg6, main_arg7, main_arg8]

/-- A host operation keeps the references `rs`: it writes none of them. -/
abbrev Keeps (rs : List (Ref sig .tc)) (op : HloOp τ sig (Elt F)) : Prop :=
  ∀ y : Ref sig .tc, Proc.devRef (τ := τ) .tc y ∈ op.writes → y ∉ rs

theorem keeps_of_single {rs : List (Ref sig .tc)} {op : HloOp τ sig (Elt F)} {y₀ : Ref sig .tc}
    (hw : op.writes = {Proc.devRef (τ := τ) .tc y₀}) (h : y₀ ∉ rs) : Keeps rs op := by
  intro y hy
  rw [hw, Finset.mem_singleton] at hy
  exact Proc.devRef_injective _ hy ▸ h

/-- A stretch whose operations each write one buffer outside `rs` (the list is walked once) leaves `rs` as they were. -/
theorem after_of_keeps {rs : List (Ref sig .tc)} (ops : List (HloOp τ sig (Elt F))) (V : Valuation τ sig (Elt F))
    {r : Ref sig .tc} (hr : r ∈ rs)
    (h : ops.Forall (Keeps rs) := by repeat' (first | exact keeps_of_single rfl (by decide) | apply And.intro)) :
    StableHlo.after ops V (Proc.devRef .tc r) = V (Proc.devRef .tc r) :=
  StableHlo.after_of_forall_not_mem ops V fun op hop hb =>
    (List.forall_iff_forall_mem.mp h) op hop r hb hr

theorem region0_spares : ∀ r ∈ argRefs, ∀ w, Pipeline.arrRef spec0 w ≠ r := by decide
theorem region1_spares : ∀ r ∈ argRefs, ∀ w, Pipeline.arrRef spec1 w ≠ r := by decide
theorem region2_spares : ∀ r ∈ argRefs, ∀ w, Pipeline.arrRef spec2 w ≠ r := by decide

variable (m : (ℓ : Loc nD τ sig) → Buf (Elt F) ℓ) (ρ : Dev nD → PrngReg)

/-- No item of @main writes an argument: boundary by boundary its contents are the launch memory's. -/
abbrev Arg (W : Vals F) : Prop :=
  ∀ (c : Dev nD) (r : Ref sig .tc), r ∈ argRefs → W c (Proc.devRef .tc r) = m ((c : Thread nD τ).loc r)

/-- One more stretch that writes no argument. -/
theorem Arg.step {W : Vals F} (h : Arg m W) (ops : List (HloOp τ sig (Elt F)))
    (hk : ops.Forall (Keeps argRefs) := by repeat' (first | exact keeps_of_single rfl (by decide) | apply And.intro)) :
    Arg m fun c => StableHlo.after ops (W c) :=
  fun c r hr => (after_of_keeps ops _ hr hk).trans (h c r hr)

theorem W2_arg : Arg m (W2 m ρ) := fun c r hr =>
  (W2_of_ne m ρ c r (region0_spares r hr)).trans (after_of_keeps hostOps0 _ hr)
set_option maxHeartbeats 4000000 in
theorem W8_arg : Arg m (W8 m ρ) :=
  ((((((W2_arg m ρ).step m hostOps1).step m hostOps1_1).step m hostOps1_2).step m hostOps1_3).step m hostOps1_4).step m hostOps1_5
theorem W10_arg : Arg m (W10 m ρ) := fun c r hr =>
  (W10_of_ne m ρ c r (region1_spares r hr)).trans (((W8_arg m ρ).step m hostOps1_6) c r hr)
set_option maxHeartbeats 4000000 in
theorem W16_arg : Arg m (W16 m ρ) :=
  ((((((W10_arg m ρ).step m hostOps2).step m hostOps2_1).step m hostOps2_2).step m hostOps2_3).step m hostOps2_4).step m hostOps2_5
theorem W18_arg : Arg m (W18 m ρ) := fun c r hr =>
  (W18_of_ne m ρ c r (region2_spares r hr)).trans (((W16_arg m ρ).step m hostOps2_6) c r hr)
set_option maxHeartbeats 4000000 in
theorem W25_arg : Arg m (W25 m ρ) :=
  (((((((W18_arg m ρ).step m hostOps3).step m hostOps3_1).step m hostOps3_2).step m hostOps3_3).step m hostOps3_4).step m hostOps3_5).step m hostOps3_6

end Cert.KernelIdeal.Neg

end
-- ==== Proof.KI.Frame.lean ====
import proofs.«168589_j44040594653637_1_alg».proof.Proof.KI.Run
import proofs.«168589_j44040594653637_1_alg».proof.Proof.KI.Args

noncomputable section

namespace Cert.KernelIdeal.Neg

open Idealize.ShloMosaic Idealize.ShloMosaic.TcCoe
open Idealize.SL Idealize.SL.Sem
open Cert.KernelIdeal Cert.KernelIdeal.Gen Cert.KernelIdeal.Facts₀ Cert.KernelIdeal.Facts

variable {F : FTy → Type} [FloatOps F]
variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Nine (P : Ref sig .tc → Prop) : Prop :=
  P main_arg0 ∧ P main_arg1 ∧ P main_arg2 ∧ P main_arg3 ∧ P main_arg4 ∧ P main_arg5 ∧ P main_arg6 ∧ P main_arg7 ∧ P main_arg8

theorem args_unscoped : ∀ r ∈ argRefs, ¬ (Proc.devRef .tc r : DevRef τ sig).isScoped := by decide

/-- The last boundary read at the nine arguments, which no item writes: the launch memory. -/
theorem kept {mem : (ℓ : Loc nD τ sig) → Buf (Elt F) ℓ} (c : Dev nD)
    (h : ∀ b ∈ Pipeline.ucRefs τ sig, mem ((c : Thread nD τ).1, b) = W25 m ρ c b) :
    Nine fun r => mem ((c.tc : Thread nD τ).loc r) = m ((c.tc : Thread nD τ).loc r) :=
  have k (r : Ref sig .tc) (hr : r ∈ argRefs) : mem ((c.tc : Thread nD τ).loc r) = m ((c.tc : Thread nD τ).loc r) :=
    (h _ (mem_uc r (args_unscoped r hr))).trans (W25_arg m ρ c r hr)
  ⟨k main_arg0 (by decide), k main_arg1 (by decide), k main_arg2 (by decide), k main_arg3 (by decide), k main_arg4 (by decide),
    k main_arg5 (by decide), k main_arg6 (by decide), k main_arg7 (by decide), k main_arg8 (by decide)⟩

end Cert.KernelIdeal.Neg

end
-- ==== Proof.SpecPos.lean ====
import proofs.«168589_j44040594653637_1_alg».proof.Proof.Gen.KernelIdeal
import Idealize.ShloMosaic.PureOps.Ideal.Laws
import Idealize.ShloMosaic.Lib.ValueIdx
import Idealize.ShloMosaic.Lib.Pipeline.Value

set_option maxRecDepth 16384

noncomputable section

namespace Cert.Spec

open Idealize.ShloMosaic
open Cert.KernelIdeal

section Stages
variable {F : FTy → Type} [FloatOps F]

abbrev spread (x : FVec F S_ .f32) : FVec F S8x128 .f32 := broadcastInDim S8x128 ![] Gen.bcast_S_S8x128 x

abbrev spreadI (x : IVec S_ 32) : IVec S8x128 32 := broadcastInDim S8x128 ![] Gen.bcast_S_S8x128 x

abbrev f0 : FVec F S_ .f32 := constant S_ .f32 0x00000000#32
abbrev f1 : FVec F S_ .f32 := constant S_ .f32 0x3F800000#32
abbrev f2 : FVec F S_ .f32 := constant S_ .f32 0x40000000#32

def validMask (cd : IVec S8x128x4 32) : IVec S8x128 1 :=
  cmpi .sgt (shapeCast S8x128 (extractStridedSlice S8x128x1 ![0, 0, 0] cd Gen.slices_S8x128x4_S8x128x1_0_0_0) Gen.shapeCasts_S8x128x1_S8x128)
    (spreadI (constantI S_ 32 4294967295#32))

def clamped (cd : IVec S8x128x4 32) : IVec S8x128x4 32 :=
  maxsi cd (broadcastInDim S8x128x4 ![] Gen.bcast_S_S8x128x4 (constantI S_ 32 0#32))

def wrapIdx (n : BitVec 32) (x : IVec S8x128 32) : IVec S8x128 32 :=
  select (cmpi .slt x (spreadI (constantI S_ 32 0#32))) (addi x (spreadI (constantI S_ 32 n))) x

def batchCol : IVec S8x1 32 :=
  select (cmpi .slt (broadcastInDim S8x1 ![0] Gen.bcast_S8_S8x1_0 (iotaInDim S8 32 0)) (broadcastInDim S8x1 ![] Gen.bcast_S_S8x1 (constantI S_ 32 0#32)))
    (addi (broadcastInDim S8x1 ![0] Gen.bcast_S8_S8x1_0 (iotaInDim S8 32 0)) (broadcastInDim S8x1 ![] Gen.bcast_S_S8x1 (constantI S_ 32 8#32)))
    (broadcastInDim S8x1 ![0] Gen.bcast_S8_S8x1_0 (iotaInDim S8 32 0))

abbrev asCol (x : IVec S8x128 32) : IVec S8x128x1 32 := broadcastInDim S8x128x1 ![0, 1] Gen.bcast_S8x128_S8x128x1_0_1 x

def cat5 (c0 c1 c2 c3 c4 : IVec S8x128x1 32) : IVec S8x128x5 32 :=
  concatenate S8x128x5 2 [⟨S8x128x1, c0⟩, ⟨S8x128x1, c1⟩, ⟨S8x128x1, c2⟩, ⟨S8x128x1, c3⟩, ⟨S8x128x1, c4⟩]
    Gen.concatenates_S8x128x1_S8x128x1_S8x128x1_S8x128x1_S8x128x1_S8x128x5_d2

abbrev coord (off : Fin 3 → ℕ) (h : S8x128x4.Slices off S8x128x1) (cd : IVec S8x128x4 32) : IVec S8x128 32 :=
  shapeCast S8x128 (extractStridedSlice S8x128x1 off (clamped cd) h) Gen.shapeCasts_S8x128x1_S8x128

def gatherIdx (n : BitVec 32) (cd : IVec S8x128x4 32) : IVec S8x128x5 32 :=
  cat5 (asCol (broadcastInDim S8x128 ![0, 1] Gen.bcast_S8x1_S8x128_0_1 batchCol))
    (asCol (wrapIdx 2#32 (coord ![0, 0, 0] Gen.slices_S8x128x4_S8x128x1_0_0_0 cd)))
    (asCol (wrapIdx n (coord ![0, 0, 1] Gen.slices_S8x128x4_S8x128x1_0_0_1 cd)))
    (asCol (wrapIdx n (coord ![0, 0, 2] Gen.slices_S8x128x4_S8x128x1_0_0_2 cd)))
    (asCol (wrapIdx n (coord ![0, 0, 3] Gen.slices_S8x128x4_S8x128x1_0_0_3 cd)))

def posWeight (y : FVec F S8x128 .f32) (v : IVec S8x128 1) : FVec F S8x128 .f32 :=
  mulf (Host.powf (subf (spread f1) (Host.divf (spread f1) (addf (spread f1) (Host.exp (Host.negf y))))) (spread f2))
    (uitofp .f32 v)

def rowSum (w : FVec F S8x128 .f32) : FVec F S8 .f32 :=
  Host.reduceAdd w f0 Gen.reducesTo_S8x128_S8_d1 Gen.h_S_

def softplusH (x : FVec F S8x128 .f32) : FVec F S8x128 .f32 :=
  select (cmpf .une (subf x (spread f0)) (subf x (spread f0)))
    (addf x (spread f0))
    (addf (maximumf x (spread f0)) (Host.log1p (Host.exp (Host.negf (Host.absf (subf x (spread f0)))))))

def logSigmoidH (y : FVec F S8x128 .f32) : FVec F S8x128 .f32 := Host.negf (softplusH (Host.negf y))

def posOf (y w : FVec F S8x128 .f32) (sw : FVec F S8 .f32) (v : IVec S8x128 1) : FVec F S_ .f32 :=
  Host.reduceAdd
    (select (Host.reduce IntOp.ori v (constantI S_ 1 0#1) Gen.reducesTo_S8x128_S8_d1 Gen.h_S_)
      (Host.divf (Host.negf (rowSum (mulf (logSigmoidH y) w)))
        (select (cmpf .ogt sw (broadcastInDim S8 ![] Gen.bcast_S_S8 f0)) sw (broadcastInDim S8 ![] Gen.bcast_S_S8 (id f1))))
      (broadcastInDim S8 ![] Gen.bcast_S_S8 (id f0)))
    f0 Gen.reducesTo_S8_S_d0 Gen.h_S_

def posLevelG {L : Shape} (G : FVec F L .f32 → IVec S8x128x5 32 → FVec F S8x128 .f32) (n : BitVec 32)
    (lg : FVec F L .f32) (cd : IVec S8x128x4 32) : FVec F S_ .f32 :=
  posOf (G lg (gatherIdx n cd)) (posWeight (G lg (gatherIdx n cd)) (validMask cd))
    (rowSum (posWeight (G lg (gatherIdx n cd)) (validMask cd))) (validMask cd)

end Stages

abbrev gather0 {F : FTy → Type} : FVec F S8x2x96x96x96 .f32 → IVec S8x128x5 32 → FVec F S8x128 .f32 :=
  fun x i => Host.gather gather_S8x2x96x96x96_S8x128x5_S8x128_n_01234_n_n_01234_2_11111 x i
abbrev gather1 {F : FTy → Type} : FVec F S8x2x48x48x48 .f32 → IVec S8x128x5 32 → FVec F S8x128 .f32 :=
  fun x i => Host.gather gather_S8x2x48x48x48_S8x128x5_S8x128_n_01234_n_n_01234_2_11111 x i
abbrev gather2 {F : FTy → Type} : FVec F S8x2x24x24x24 .f32 → IVec S8x128x5 32 → FVec F S8x128 .f32 :=
  fun x i => Host.gather gather_S8x2x24x24x24_S8x128x5_S8x128_n_01234_n_n_01234_2_11111 x i

end Cert.Spec

end
-- ==== Proof.Spec.lean ====
import proofs.«168589_j44040594653637_1_alg».proof.Proof.Gen.KernelIdeal
import proofs.«168589_j44040594653637_1_alg».proof.Proof.SpecPos
import Idealize.ShloMosaic.PureOps.Ideal.Laws
import Idealize.ShloMosaic.Lib.ValueIdx
import Idealize.ShloMosaic.Lib.Pipeline.Value

set_option maxRecDepth 16384

noncomputable section

namespace Cert.Spec

open Idealize.ShloMosaic
open Cert.KernelIdeal Cert.KernelIdeal.Facts₀ Cert.KernelIdeal.Facts
open scoped BigOperators

variable {F : FTy → Type} [FloatOps F]

def posLevel0 (lg : (⟨S8x2x96x96x96, .f32⟩ : BufTy).Contents (Elt F)) (cd : (⟨S8x128x4, .i32⟩ : BufTy).Contents (Elt F)) :
    (⟨S_, .f32⟩ : BufTy).Contents (Elt F) := posLevelG gather0 96#32 lg cd

def posLevel1 (lg : (⟨S8x2x48x48x48, .f32⟩ : BufTy).Contents (Elt F)) (cd : (⟨S8x128x4, .i32⟩ : BufTy).Contents (Elt F)) :
    (⟨S_, .f32⟩ : BufTy).Contents (Elt F) := posLevelG gather1 48#32 lg cd

def posLevel2 (lg : (⟨S8x2x24x24x24, .f32⟩ : BufTy).Contents (Elt F)) (cd : (⟨S8x128x4, .i32⟩ : BufTy).Contents (Elt F)) :
    (⟨S_, .f32⟩ : BufTy).Contents (Elt F) := posLevelG gather2 24#32 lg cd

def quot (num den : (⟨S_, .f32⟩ : BufTy).Contents (Elt F)) : (⟨S_, .f32⟩ : BufTy).Contents (Elt F) := Host.divf num den

def total (t0 t1 t2 : (⟨S_, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F))
    ((addf : (⟨S_, .f32⟩ : BufTy).Contents (Elt F) → (⟨S_, .f32⟩ : BufTy).Contents (Elt F) → (⟨S_, .f32⟩ : BufTy).Contents (Elt F))
      ((addf : (⟨S_, .f32⟩ : BufTy).Contents (Elt F) → (⟨S_, .f32⟩ : BufTy).Contents (Elt F) → (⟨S_, .f32⟩ : BufTy).Contents (Elt F))
        (constant S_ .f32 0x00000000#32) t0) t1) t2

def single (t : (⟨S_, .f32⟩ : BufTy).Contents (Elt F)) : (⟨S1, .f32⟩ : BufTy).Contents (Elt F) :=
  (broadcastInDim S1 ![] bcast_S_S1 : (⟨S_, .f32⟩ : BufTy).Contents (Elt F) → (⟨S1, .f32⟩ : BufTy).Contents (Elt F)) t

def losses (p0 p1 p2 n0 n1 n2 : (⟨S_, .f32⟩ : BufTy).Contents (Elt F)) : (⟨S2, .f32⟩ : BufTy).Contents (Elt F) :=
  concatenate S2 0 [⟨S1, single (total p0 p1 p2)⟩, ⟨S1, single (total n0 n1 n2)⟩] concatenates_S1_S1_S2_d0

def counts : (⟨S2, .f32⟩ : BufTy).Contents (Elt F) :=
  (broadcastInDim S2 ![] bcast_S_S2 : (⟨S_, .f32⟩ : BufTy).Contents (Elt F) → (⟨S2, .f32⟩ : BufTy).Contents (Elt F))
    (constant S_ .f32 0x3F800000#32)

def maskElt (g : Ideal .f32) : Ideal .f32 :=
  FloatOps.sitofp .f32 ((FloatOps.cmpf .oeq g (FloatOps.ofBits .f32 0xBF800000#32)).setWidth 32)

def wElt (x g : Ideal .f32) : Ideal .f32 :=
  FloatOps.mulf (FloatOps.mulf (FloatOps.logistic x) (FloatOps.logistic x)) (maskElt g)

def splusElt (x : Ideal .f32) : Ideal .f32 :=
  Scalar.select
    (FloatOps.cmpf .one (FloatOps.subf x (FloatOps.ofBits .f32 0x00000000#32)) (FloatOps.subf x (FloatOps.ofBits .f32 0x00000000#32)))
    (FloatOps.addf x (FloatOps.ofBits .f32 0x00000000#32))
    (FloatOps.addf (FloatOps.maximumf x (FloatOps.ofBits .f32 0x00000000#32))
      (FloatOps.log1p (FloatOps.exp (FloatOps.subf (FloatOps.ofBits .f32 0x00000000#32)
        (FloatOps.absf (FloatOps.subf x (FloatOps.ofBits .f32 0x00000000#32)))))))

def nwElt (x g : Ideal .f32) : Ideal .f32 := FloatOps.mulf (splusElt x) (wElt x g)

def negNum {S : Shape} (x g : S.Idx → Ideal .f32) : Ideal .f32 := ∑ i : S.Idx, nwElt (x i) (g i)

def negDen {S : Shape} (x g : S.Idx → Ideal .f32) : Ideal .f32 := ∑ i : S.Idx, wElt (x i) (g i)

def negLevel {S : Shape} (x g : S.Idx → Ideal .f32) : (⟨S_, .f32⟩ : BufTy).Contents (Elt Ideal) :=
  quot (fun _ => negNum x g) (fun _ => negDen x g)

end Cert.Spec

end
-- ==== Proof.LibRowOps.lean ====
import Idealize.ShloMosaic.PureOps.Ideal.Laws
import Idealize.ShloMosaic.Lib.ValueLayout

open scoped BigOperators

namespace Cert.RowOps

open Idealize.ShloMosaic Idealize.ShloMosaic.ValueIdx

variable {R N : ℕ} {φ : FTy} {α : Type}

/-- Summing a matrix along its columns leaves, at row `r`, the sum of that row. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun _ _ => congrArg src (Shape.idx_ext₂ rfl rfl))

/-- A vector reshaped to a one-column matrix keeps its entries. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    rw [Shape.rowMajor_val_two, Shape.rowMajor_val_one]
    show r.val = r.val * 1 + u.val
    omega)

end Cert.RowOps
-- ==== Proof.LibBlockSum.lean ====
import proofs.«168589_j44040594653637_1_alg».proof.Proof.LibRowOps
import Idealize.ShloMosaic.Lib.Pipeline.Value

open scoped BigOperators

namespace Cert.BlockSum

open Idealize.ShloMosaic Idealize.ShloMosaic.ValueIdx Cert.RowOps

variable {R K N T : ℕ} {φ : FTy}

/-- Summing a matrix along its rows leaves, at column `k`, the sum of that column. -/
theorem colSum_apply (src : FVec Ideal ⟨2, ![R, K]⟩ φ) (acc : BitVec φ.bits)
    (h : (⟨2, ![R, K]⟩ : Shape).Reduces [(0 : Fin 2)] ⟨1, ![K]⟩) (hφ : FKind.Formats φ)
    (hacc : acc = FKind.add.neutral φ hφ) (k : Fin K) :
    multiReduction .add [(0 : Fin 2)] ⟨1, ![K]⟩ src acc h hφ hacc (ix1 k) = ∑ r : Fin R, src (ix2 r k) :=
  (Ideal.multiReduction_add_single src acc h hφ hacc (ix1 k)).trans
    (Finset.sum_congr rfl fun _ _ => congrArg src (Shape.idx_ext₂ rfl rfl))

/-- A 1 × 1 value plus the sum of all entries of `e x g`, taken along the columns and then along the rows, is the value
    plus the double sum. -/
theorem addTotal_apply (e : Ideal φ → Ideal φ → Ideal φ) {x g : FVec Ideal ⟨2, ![R, K]⟩ φ} {p : FVec Ideal ⟨2, ![1, 1]⟩ φ}
    {hx : (⟨2, ![R, K]⟩ : Shape).ShapeCasts ⟨2, ![R, K]⟩} {hp : (⟨2, ![1, 1]⟩ : Shape).ShapeCasts ⟨2, ![1, 1]⟩}
    {acc₁ acc₂ : BitVec φ.bits} {h₁ : (⟨2, ![R, K]⟩ : Shape).Reduces [(1 : Fin 2)] ⟨1, ![R]⟩}
    {hc₁ : (⟨1, ![R]⟩ : Shape).ShapeCasts ⟨2, ![R, 1]⟩} {h₂ : (⟨2, ![R, 1]⟩ : Shape).Reduces [(0 : Fin 2)] ⟨1, ![1]⟩}
    {hc₂ : (⟨1, ![1]⟩ : Shape).ShapeCasts ⟨2, ![1, 1]⟩} {hφ : FKind.Formats φ} {hacc₁ : acc₁ = FKind.add.neutral φ hφ}
    {hacc₂ : acc₂ = FKind.add.neutral φ hφ} {i : (⟨2, ![1, 1]⟩ : Shape).Idx} :
    shapeCast ⟨2, ![1, 1]⟩ p hp i + shapeCast ⟨2, ![1, 1]⟩ (multiReduction .add [(0 : Fin 2)] ⟨1, ![1]⟩
        (shapeCast ⟨2, ![R, 1]⟩ (multiReduction .add [(1 : Fin 2)] ⟨1, ![R]⟩
          (fun j => e (shapeCast ⟨2, ![R, K]⟩ x hx j) (shapeCast ⟨2, ![R, K]⟩ g hx j)) acc₁ h₁ hφ hacc₁) hc₁) acc₂ h₂ hφ hacc₂)
        hc₂ i
      = p i + ∑ r : Fin R, ∑ k : Fin K, e (x (ix2 r k)) (g (ix2 r k)) := by
  obtain ⟨a, b, rfl⟩ : ∃ a b : Fin 1, i = ix2 a b := ⟨i 0, i 1, eq_ix2 i⟩
  rw [shapeCast_self, shapeCast_self, shapeCast_self, shapeCast_a_a1_apply, colSum_apply]
  exact congrArg _ (Finset.sum_congr rfl fun r _ => (shapeCast_a_a1_apply _ hc₁ r a).trans (rowSum_apply _ acc₁ h₁ hφ hacc₁ r))

theorem blockRow_lt (hT : N * R = T) (t : Fin N) (r : Fin R) : R * t.val + r.val < T := by
  rw [← hT, Nat.mul_comm N R]
  exact (Nat.add_lt_add_left r.2 _).trans_le (Nat.mul_le_mul_left R t.2)

/-- A sum over `N·R` rows, taken block by block. -/
theorem sum_rows_blocks {M : Type*} [AddCommMonoid M] (hT : N * R = T) (f : Fin T → M) :
    ∑ a : Fin T, f a = ∑ t : Fin N, ∑ r : Fin R, f ⟨R * t.val + r.val, blockRow_lt hT t r⟩ := by
  subst hT
  refine ((finProdFinEquiv (m := N) (n := R)).sum_comp f).symm.trans ((Fintype.sum_prod_type _).trans ?_)
  exact Finset.sum_congr rfl fun t _ => Finset.sum_congr rfl fun r _ => congrArg f (Fin.ext (Nat.add_comm _ _))

theorem sum_idx_blocks {M : Type*} [AddCommMonoid M] (hT : N * R = T) (f : (⟨2, ![T, K]⟩ : Shape).Idx → M) :
    ∑ i, f i = ∑ t : Fin N, ∑ r : Fin R, ∑ k : Fin K, f (ix2 ⟨R * t.val + r.val, blockRow_lt hT t r⟩ k) :=
  (sum_idx2 f).trans (sum_rows_blocks hT fun a => ∑ k : Fin K, f (ix2 a k))
/-- A running value that starts from zero and gains at point `t` the double sum of `e` over block `t` (rows
    `R·t … R·t + R - 1` of the two arrays) is, after the last of the `N` points, the sum of `e` over the whole arrays. -/
theorem run_blocks {M α : Type*} [AddCommMonoid M] {N' : ℕ} (hT : N * R = T) (e : α → α → M)
    {X G : (⟨2, ![T, K]⟩ : Shape).Idx → α} {x g : Fin N' → (⟨2, ![R, K]⟩ : Shape).Idx → α}
    (hx : ∀ t r k h, x t (ix2 r k) = X (ix2 ⟨R * t.val + r.val, h⟩ k) ∧ g t (ix2 r k) = G (ix2 ⟨R * t.val + r.val, h⟩ k))
    (u : (n : ℕ) → n < N' → M) {z : M} (hz : z = 0)
    (h0 : ∀ h, u 0 h = z + ∑ r, ∑ k, e (x ⟨0, h⟩ (ix2 r k)) (g ⟨0, h⟩ (ix2 r k)))
    (hs : ∀ n h, u (n + 1) h = u n (Nat.lt_of_succ_lt h) + ∑ r, ∑ k, e (x ⟨n + 1, h⟩ (ix2 r k)) (g ⟨n + 1, h⟩ (ix2 r k)))
    (n : ℕ) (h : n < N') (hn : n + 1 = N) : u n h = ∑ i, e (X i) (G i) := by
  have key : ∀ n h, u n h = ∑ s : Fin (n + 1), ∑ r, ∑ k,
      e (x ⟨s, Nat.lt_of_le_of_lt (Nat.le_of_lt_succ s.2) h⟩ (ix2 r k)) (g ⟨s, Nat.lt_of_le_of_lt (Nat.le_of_lt_succ s.2) h⟩ (ix2 r k)) := by
    intro n
    induction n with
    | zero => intro h; rw [h0, hz, zero_add, Fin.sum_univ_one]; rfl
    | succ n ih => intro h; rw [hs, Fin.sum_univ_castSucc, ih]; rfl
  subst hn
  rw [key, sum_idx_blocks hT]
  exact Finset.sum_congr rfl fun s _ => Finset.sum_congr rfl fun r _ => Finset.sum_congr rfl fun k _ =>
    congrArg₂ e (hx _ r k _).1 (hx _ r k _).2

/-- A nonempty set of indices of an array with one element holds every index. -/
theorem mem_of_size_one {s : Shape} (hs : ∀ a, s.size a = 1) {A : Finset s.Idx} (hA : 0 < A.card) (i : s.Idx) : i ∈ A := by
  obtain ⟨j, hj⟩ := Finset.card_pos.1 hA
  rwa [show i = j from funext fun a => Fin.ext (by have := (i a).2; have := (j a).2; have := hs a; omega)]

section
open Idealize Idealize.SL Idealize.SL.RA Idealize.SL.Sem Idealize.ShloMosaic.Pipeline
variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (dat : Dat τ Val Ix Name U Lvl cfg c)

/-- A one-element array whose only overwrite carries `z` ends holding `z`. -/
theorem arrAt_eq_const (w : Fin cfg.W) (z : Val ((cfg.win w).arr.view.loc (c.tc : Thread nD τ)).2.ty.elt) {n : ℕ}
    (hN : cfg.N = n + 1) (hfl : ∀ t : Fin cfg.N, (cfg.win w).flush t = true ↔ t.val % (n + 1) = n)
    (hs : ∀ a, ((cfg.win w).arr.view.loc (c.tc : Thread nD τ)).2.ty.shape.size a = 1)
    (hb : 0 < ((cfg.win w).xblock (cfg.grid.coords ⟨n, n.lt_succ_self.trans_eq hN.symm⟩)).numel)
    (hz : ∀ j, HEq (dat.flushed w ⟨n, n.lt_succ_self.trans_eq hN.symm⟩ j) z) : dat.arrAt w cfg.N = fun _ => z :=
  dat.arrAt_eq_of_cover w _ (fun t hf => by
      obtain rfl : t = ⟨n, n.lt_succ_self.trans_eq hN.symm⟩ := Fin.ext ((Nat.mod_eq_of_lt (t.2.trans_eq hN)).symm.trans ((hfl t).1 hf))
      exact funext fun j => eq_of_heq ((hz j).trans (cast_heq _ z).symm))
    fun i => ⟨⟨n, n.lt_succ_self.trans_eq hN.symm⟩, (hfl _).2 (Nat.mod_eq_of_lt n.lt_succ_self),
      mem_of_size_one hs (hb.trans_eq (View.card_set _).symm) i⟩

end

end Cert.BlockSum
-- ==== Proof.KI.NegVal0.lean ====
import proofs.«168589_j44040594653637_1_alg».proof.Proof.KI.Neg0
import proofs.«168589_j44040594653637_1_alg».proof.Proof.Spec
import proofs.«168589_j44040594653637_1_alg».proof.Proof.LibBlockSum

namespace Cert.KernelIdeal.Neg

open Idealize.ShloMosaic Idealize.ShloMosaic.TcCoe Idealize.ShloMosaic.ValueIdx
open Cert.KernelIdeal Cert.KernelIdeal.Gen Cert.BlockSum Cert.Spec
open scoped BigOperators

variable (V : (c : Dev nD) → (b : Ref sig .tc) → Buf (Elt Ideal) ((c : Thread nD τ).loc b))

/-- One point adds to each running sum the block's double sum of its term. -/
theorem step0_apply {x g : Vec Ideal S4096x128 .f32} {p : Vec Ideal S1x1 .f32 × Vec Ideal S1x1 .f32} {i : S1x1.Idx} :
    (step0 x g p).1 i = p.1 i + ∑ r : Fin 4096, ∑ k : Fin 128, nwElt (x (ix2 r k)) (g (ix2 r k))
      ∧ (step0 x g p).2 i = p.2 i + ∑ r : Fin 4096, ∑ k : Fin 128, wElt (x (ix2 r k)) (g (ix2 r k)) :=
  ⟨addTotal_apply nwElt, addTotal_apply wElt⟩

/-- Block `t` of an input, read at `(r, k)`: the array at row `4096·t + r`, lane `k`. -/
theorem blkRow0 (c : Dev nD) (t : Fin cfg0.N) (r : Fin 4096) (k : Fin 128) (h : 4096 * t.val + r.val < 110592) :
    xb0 V c t (ix2 r k) = V c main_v0 (ix2 ⟨4096 * t.val + r.val, h⟩ k)
      ∧ gb0 V c t (ix2 r k) = V c main_v1 (ix2 ⟨4096 * t.val + r.val, h⟩ k) := by
  obtain ⟨⟨x0, x1⟩, g0, g1⟩ := (by decide +kernel : ∀ t : Fin grid0.N,
    (win0_0.index t 0 = t.val ∧ win0_0.index t 1 = 0) ∧ win0_1.index t 0 = t.val ∧ win0_1.index t 1 = 0) t
  constructor <;> (show V c _ _ = V c _ _; refine congrArg _ (Shape.idx_ext₂ ?_ ?_))
  · show win0_0.index t 0 * 4096 + 1 * r.val = 4096 * t.val + r.val; omega
  · show win0_0.index t 1 * 128 + 1 * k.val = k.val; omega
  · show win0_1.index t 0 * 4096 + 1 * r.val = 4096 * t.val + r.val; omega
  · show win0_1.index t 1 * 128 + 1 * k.val = k.val; omega

/-- After the last point the two running sums are the level's two sums. -/
theorem final0 (c : Dev nD) (i : S1x1.Idx) (h : 26 < cfg0.N) :
    (acc0 V c 26 h).1 i = negNum (S := S110592x128) (V c main_v0) (V c main_v1)
      ∧ (acc0 V c 26 h).2 i = negDen (S := S110592x128) (V c main_v0) (V c main_v1) :=
  ⟨run_blocks (N := 27) rfl nwElt (blkRow0 V c) (fun n h => (acc0 V c n h).1 i) Ideal.ofBits_zero_f32
      (fun _ => step0_apply.1) (fun _ _ => step0_apply.1) 26 h rfl,
    run_blocks (N := 27) rfl wElt (blkRow0 V c) (fun n h => (acc0 V c n h).2 i) Ideal.ofBits_zero_f32
      (fun _ => step0_apply.2) (fun _ _ => step0_apply.2) 26 h rfl⟩

theorem arrAt0_2 (c : Dev nD) : (dat0 (F := Ideal) V c).arrAt 2 cfg0.N = fun _ => Cert.Spec.negNum (S := S110592x128) (V c main_v0) (V c main_v1) :=
  arrAt_eq_const _ 2 _ N_0 flush0_2 (Fin.forall_fin_two.2 ⟨rfl, rfl⟩) (by decide) fun j => heq_of_eq (final0 V c _ _).1
theorem arrAt0_3 (c : Dev nD) : (dat0 (F := Ideal) V c).arrAt 3 cfg0.N = fun _ => Cert.Spec.negDen (S := S110592x128) (V c main_v0) (V c main_v1) :=
  arrAt_eq_const _ 3 _ N_0 flush0_3 (Fin.forall_fin_two.2 ⟨rfl, rfl⟩) (by decide) fun j => heq_of_eq (final0 V c _ _).2

end Cert.KernelIdeal.Neg
-- ==== Proof.KI.NegVal1.lean ====
import proofs.«168589_j44040594653637_1_alg».proof.Proof.KI.Neg1
import proofs.«168589_j44040594653637_1_alg».proof.Proof.Spec
import proofs.«168589_j44040594653637_1_alg».proof.Proof.LibBlockSum

namespace Cert.KernelIdeal.Neg

open Idealize.ShloMosaic Idealize.ShloMosaic.TcCoe Idealize.ShloMosaic.ValueIdx
open Cert.KernelIdeal Cert.KernelIdeal.Gen Cert.BlockSum Cert.Spec
open scoped BigOperators

variable (V : (c : Dev nD) → (b : Ref sig .tc) → Buf (Elt Ideal) ((c : Thread nD τ).loc b))

/-- One point adds to each running sum the block's double sum of its term. -/
theorem step1_apply {x g : Vec Ideal S512x128 .f32} {p : Vec Ideal S1x1 .f32 × Vec Ideal S1x1 .f32} {i : S1x1.Idx} :
    (step1 x g p).1 i = p.1 i + ∑ r : Fin 512, ∑ k : Fin 128, nwElt (x (ix2 r k)) (g (ix2 r k))
      ∧ (step1 x g p).2 i = p.2 i + ∑ r : Fin 512, ∑ k : Fin 128, wElt (x (ix2 r k)) (g (ix2 r k)) :=
  ⟨addTotal_apply nwElt, addTotal_apply wElt⟩

/-- Block `t` of an input, read at `(r, k)`: the array at row `512·t + r`, lane `k`. -/
theorem blkRow1 (c : Dev nD) (t : Fin cfg1.N) (r : Fin 512) (k : Fin 128) (h : 512 * t.val + r.val < 13824) :
    xb1 V c t (ix2 r k) = V c main_v81 (ix2 ⟨512 * t.val + r.val, h⟩ k)
      ∧ gb1 V c t (ix2 r k) = V c main_v82 (ix2 ⟨512 * t.val + r.val, h⟩ k) := by
  obtain ⟨⟨x0, x1⟩, g0, g1⟩ := (by decide +kernel : ∀ t : Fin grid1.N,
    (win1_0.index t 0 = t.val ∧ win1_0.index t 1 = 0) ∧ win1_1.index t 0 = t.val ∧ win1_1.index t 1 = 0) t
  constructor <;> (show V c _ _ = V c _ _; refine congrArg _ (Shape.idx_ext₂ ?_ ?_))
  · show win1_0.index t 0 * 512 + 1 * r.val = 512 * t.val + r.val; omega
  · show win1_0.index t 1 * 128 + 1 * k.val = k.val; omega
  · show win1_1.index t 0 * 512 + 1 * r.val = 512 * t.val + r.val; omega
  · show win1_1.index t 1 * 128 + 1 * k.val = k.val; omega

/-- After the last point the two running sums are the level's two sums. -/
theorem final1 (c : Dev nD) (i : S1x1.Idx) (h : 26 < cfg1.N) :
    (acc1 V c 26 h).1 i = negNum (S := S13824x128) (V c main_v81) (V c main_v82)
      ∧ (acc1 V c 26 h).2 i = negDen (S := S13824x128) (V c main_v81) (V c main_v82) :=
  ⟨run_blocks (N := 27) rfl nwElt (blkRow1 V c) (fun n h => (acc1 V c n h).1 i) Ideal.ofBits_zero_f32
      (fun _ => step1_apply.1) (fun _ _ => step1_apply.1) 26 h rfl,
    run_blocks (N := 27) rfl wElt (blkRow1 V c) (fun n h => (acc1 V c n h).2 i) Ideal.ofBits_zero_f32
      (fun _ => step1_apply.2) (fun _ _ => step1_apply.2) 26 h rfl⟩

theorem arrAt1_2 (c : Dev nD) : (dat1 (F := Ideal) V c).arrAt 2 cfg1.N = fun _ => Cert.Spec.negNum (S := S13824x128) (V c main_v81) (V c main_v82) :=
  arrAt_eq_const _ 2 _ N_1 flush1_2 (Fin.forall_fin_two.2 ⟨rfl, rfl⟩) (by decide) fun j => heq_of_eq (final1 V c _ _).1
theorem arrAt1_3 (c : Dev nD) : (dat1 (F := Ideal) V c).arrAt 3 cfg1.N = fun _ => Cert.Spec.negDen (S := S13824x128) (V c main_v81) (V c main_v82) :=
  arrAt_eq_const _ 3 _ N_1 flush1_3 (Fin.forall_fin_two.2 ⟨rfl, rfl⟩) (by decide) fun j => heq_of_eq (final1 V c _ _).2

end Cert.KernelIdeal.Neg
-- ==== Proof.KI.NegVal2.lean ====
import proofs.«168589_j44040594653637_1_alg».proof.Proof.KI.Neg2
import proofs.«168589_j44040594653637_1_alg».proof.Proof.Spec
import proofs.«168589_j44040594653637_1_alg».proof.Proof.LibBlockSum

namespace Cert.KernelIdeal.Neg

open Idealize.ShloMosaic Idealize.ShloMosaic.TcCoe Idealize.ShloMosaic.ValueIdx
open Cert.KernelIdeal Cert.KernelIdeal.Gen Cert.BlockSum Cert.Spec
open scoped BigOperators

variable (V : (c : Dev nD) → (b : Ref sig .tc) → Buf (Elt Ideal) ((c : Thread nD τ).loc b))

/-- One point adds to each running sum the block's double sum of its term. -/
theorem step2_apply {x g : Vec Ideal S64x128 .f32} {p : Vec Ideal S1x1 .f32 × Vec Ideal S1x1 .f32} {i : S1x1.Idx} :
    (step2 x g p).1 i = p.1 i + ∑ r : Fin 64, ∑ k : Fin 128, nwElt (x (ix2 r k)) (g (ix2 r k))
      ∧ (step2 x g p).2 i = p.2 i + ∑ r : Fin 64, ∑ k : Fin 128, wElt (x (ix2 r k)) (g (ix2 r k)) :=
  ⟨addTotal_apply nwElt, addTotal_apply wElt⟩

/-- Block `t` of an input, read at `(r, k)`: the array at row `64·t + r`, lane `k`. -/
theorem blkRow2 (c : Dev nD) (t : Fin cfg2.N) (r : Fin 64) (k : Fin 128) (h : 64 * t.val + r.val < 1728) :
    xb2 V c t (ix2 r k) = V c main_v162 (ix2 ⟨64 * t.val + r.val, h⟩ k)
      ∧ gb2 V c t (ix2 r k) = V c main_v163 (ix2 ⟨64 * t.val + r.val, h⟩ k) := by
  obtain ⟨⟨x0, x1⟩, g0, g1⟩ := (by decide +kernel : ∀ t : Fin grid2.N,
    (win2_0.index t 0 = t.val ∧ win2_0.index t 1 = 0) ∧ win2_1.index t 0 = t.val ∧ win2_1.index t 1 = 0) t
  constructor <;> (show V c _ _ = V c _ _; refine congrArg _ (Shape.idx_ext₂ ?_ ?_))
  · show win2_0.index t 0 * 64 + 1 * r.val = 64 * t.val + r.val; omega
  · show win2_0.index t 1 * 128 + 1 * k.val = k.val; omega
  · show win2_1.index t 0 * 64 + 1 * r.val = 64 * t.val + r.val; omega
  · show win2_1.index t 1 * 128 + 1 * k.val = k.val; omega

/-- After the last point the two running sums are the level's two sums. -/
theorem final2 (c : Dev nD) (i : S1x1.Idx) (h : 26 < cfg2.N) :
    (acc2 V c 26 h).1 i = negNum (S := S1728x128) (V c main_v162) (V c main_v163)
      ∧ (acc2 V c 26 h).2 i = negDen (S := S1728x128) (V c main_v162) (V c main_v163) :=
  ⟨run_blocks (N := 27) rfl nwElt (blkRow2 V c) (fun n h => (acc2 V c n h).1 i) Ideal.ofBits_zero_f32
      (fun _ => step2_apply.1) (fun _ _ => step2_apply.1) 26 h rfl,
    run_blocks (N := 27) rfl wElt (blkRow2 V c) (fun n h => (acc2 V c n h).2 i) Ideal.ofBits_zero_f32
      (fun _ => step2_apply.2) (fun _ _ => step2_apply.2) 26 h rfl⟩

theorem arrAt2_2 (c : Dev nD) : (dat2 (F := Ideal) V c).arrAt 2 cfg2.N = fun _ => Cert.Spec.negNum (S := S1728x128) (V c main_v162) (V c main_v163) :=
  arrAt_eq_const _ 2 _ N_2 flush2_2 (Fin.forall_fin_two.2 ⟨rfl, rfl⟩) (by decide) fun j => heq_of_eq (final2 V c _ _).1
theorem arrAt2_3 (c : Dev nD) : (dat2 (F := Ideal) V c).arrAt 3 cfg2.N = fun _ => Cert.Spec.negDen (S := S1728x128) (V c main_v162) (V c main_v163) :=
  arrAt_eq_const _ 3 _ N_2 flush2_3 (Fin.forall_fin_two.2 ⟨rfl, rfl⟩) (by decide) fun j => heq_of_eq (final2 V c _ _).2

end Cert.KernelIdeal.Neg
-- ==== Proof.KI.Keep.lean ====
import proofs.«168589_j44040594653637_1_alg».proof.Proof.KI.Args

noncomputable section

namespace Cert.KernelIdeal.Neg

open Idealize.ShloMosaic Idealize.ShloMosaic.TcCoe
open Idealize.SL Idealize.SL.Sem
open Cert.KernelIdeal Cert.KernelIdeal.Gen
open Idealize.ShloMosaic.Pipeline (Dat)

variable {F : FTy → Type} [FloatOps F]

variable (m : (ℓ : Loc nD τ sig) → Buf (Elt F) ℓ) (ρ : Dev nD → PrngReg)

/-- Each level's two kernel inputs are one operation's result: an argument array re-read in row-major order at 128 columns. -/
theorem W1_main_v0 (c : Dev nD) :
    W1 m ρ c (Proc.devRef .tc main_v0) = shapeCast S110592x128 (m ((c : Thread nD τ).loc main_arg0)) Gen.shapeCasts_S8x2x96x96x96_S110592x128 := by
  rw [show m ((c : Thread nD τ).loc main_arg0) = W0 m ρ c (Proc.devRef .tc main_arg0) from rfl]
  unfold W1; generalize W0 m ρ c = V; after_results; rfl
theorem W1_main_v1 (c : Dev nD) :
    W1 m ρ c (Proc.devRef .tc main_v1) = shapeCast S110592x128 (m ((c : Thread nD τ).loc main_arg3)) Gen.shapeCasts_S8x2x96x96x96_S110592x128 := by
  rw [show m ((c : Thread nD τ).loc main_arg3) = W0 m ρ c (Proc.devRef .tc main_arg3) from rfl]
  unfold W1; generalize W0 m ρ c = V; after_results; rfl
theorem W9_main_v81 (c : Dev nD) :
    W9 m ρ c (Proc.devRef .tc main_v81) = shapeCast S13824x128 (m ((c : Thread nD τ).loc main_arg1)) Gen.shapeCasts_S8x2x48x48x48_S13824x128 := by
  rw [← W8_arg m ρ c main_arg1 (by decide)]
  unfold W9; generalize W8 m ρ c = V; after_results; rfl
theorem W9_main_v82 (c : Dev nD) :
    W9 m ρ c (Proc.devRef .tc main_v82) = shapeCast S13824x128 (m ((c : Thread nD τ).loc main_arg4)) Gen.shapeCasts_S8x2x48x48x48_S13824x128 := by
  rw [← W8_arg m ρ c main_arg4 (by decide)]
  unfold W9; generalize W8 m ρ c = V; after_results; rfl
theorem W17_main_v162 (c : Dev nD) :
    W17 m ρ c (Proc.devRef .tc main_v162) = shapeCast S1728x128 (m ((c : Thread nD τ).loc main_arg2)) Gen.shapeCasts_S8x2x24x24x24_S1728x128 := by
  rw [← W16_arg m ρ c main_arg2 (by decide)]
  unfold W17; generalize W16 m ρ c = V; after_results; rfl
theorem W17_main_v163 (c : Dev nD) :
    W17 m ρ c (Proc.devRef .tc main_v163) = shapeCast S1728x128 (m ((c : Thread nD τ).loc main_arg5)) Gen.shapeCasts_S8x2x24x24x24_S1728x128 := by
  rw [← W16_arg m ρ c main_arg5 (by decide)]
  unfold W17; generalize W16 m ρ c = V; after_results; rfl

/-- A running total, once formed, is written by no item before the operation that adds the next level's term to it. -/
theorem W10_main_v6 (c : Dev nD) : W10 m ρ c (Proc.devRef .tc main_v6) = W3 m ρ c (Proc.devRef .tc main_v6) :=
  (W10_of_ne m ρ c main_v6 (by decide)).trans <| (after_of_keeps (rs := [main_v6]) hostOps1_6 _ (by decide)).trans <|
    (after_of_keeps (rs := [main_v6]) hostOps1_5 _ (by decide)).trans <| (after_of_keeps (rs := [main_v6]) hostOps1_4 _ (by decide)).trans <|
    (after_of_keeps (rs := [main_v6]) hostOps1_3 _ (by decide)).trans <| (after_of_keeps (rs := [main_v6]) hostOps1_2 _ (by decide)).trans
    (after_of_keeps (rs := [main_v6]) hostOps1_1 _ (by decide))
theorem W10_main_v80 (c : Dev nD) : W10 m ρ c (Proc.devRef .tc main_v80) = W9 m ρ c (Proc.devRef .tc main_v80) :=
  W10_of_ne m ρ c main_v80 (by decide)
theorem W18_main_v87 (c : Dev nD) : W18 m ρ c (Proc.devRef .tc main_v87) = W11 m ρ c (Proc.devRef .tc main_v87) :=
  (W18_of_ne m ρ c main_v87 (by decide)).trans <| (after_of_keeps (rs := [main_v87]) hostOps2_6 _ (by decide)).trans <|
    (after_of_keeps (rs := [main_v87]) hostOps2_5 _ (by decide)).trans <| (after_of_keeps (rs := [main_v87]) hostOps2_4 _ (by decide)).trans <|
    (after_of_keeps (rs := [main_v87]) hostOps2_3 _ (by decide)).trans <| (after_of_keeps (rs := [main_v87]) hostOps2_2 _ (by decide)).trans
    (after_of_keeps (rs := [main_v87]) hostOps2_1 _ (by decide))
theorem W18_main_v161 (c : Dev nD) : W18 m ρ c (Proc.devRef .tc main_v161) = W17 m ρ c (Proc.devRef .tc main_v161) :=
  W18_of_ne m ρ c main_v161 (by decide)

end Cert.KernelIdeal.Neg

end
-- ==== Proof.KI.HostStages.lean ====
import proofs.«168589_j44040594653637_1_alg».proof.Proof.Gen.KernelIdeal.Launch
import proofs.«168589_j44040594653637_1_alg».proof.Proof.SpecPos
import Idealize.ShloMosaic.Lib.StableHlo.Run

noncomputable section

namespace Idealize.ShloMosaic.StableHlo

syntax "host_results" ("[" Lean.Parser.Tactic.simpLemma,* "]")? : tactic
macro_rules
  | `(tactic| host_results) => `(tactic| host_results [])
  | `(tactic| host_results [$extra,*]) =>
    `(tactic| (simp (disch := decide) only [after_cons, after_nil,
      nullary_result', unary_result', binary_result', ternary_result', reshape_result',
      nullary_result_ne', unary_result_ne', binary_result_ne', ternary_result_ne', reshape_result_ne', nary_result_ne', $extra,*]))
end Idealize.ShloMosaic.StableHlo

namespace Cert.KernelIdeal.Neg

open Idealize.ShloMosaic Idealize.ShloMosaic.TcCoe
open Idealize.SL Idealize.SL.Sem
open Cert.KernelIdeal Cert.KernelIdeal.Gen
open Cert.Spec

variable (V : Valuation τ sig (Elt Ideal))

/-- A running total plus the quotient of a level's two sums. -/
abbrev negStep (t : FVec Ideal S_ .f32) (n d : FVec Ideal S1x1 .f32) : FVec Ideal S_ .f32 :=
  addf t (Host.divf (shapeCast S_ n Gen.shapeCasts_S1x1_S_) (shapeCast S_ d Gen.shapeCasts_S1x1_S_))

theorem cat_result0 (hxs hy) :
    (StableHlo.nary (τ := τ) (Val := Elt Ideal) ![main_v49, main_v50, main_v51, main_v52, main_v53] main_v54
      (fun u => concatenate S8x128x5 2 [⟨S8x128x1, u 0⟩, ⟨S8x128x1, u 1⟩, ⟨S8x128x1, u 2⟩, ⟨S8x128x1, u 3⟩, ⟨S8x128x1, u 4⟩]
        Gen.concatenates_S8x128x1_S8x128x1_S8x128x1_S8x128x1_S8x128x1_S8x128x5_d2) hxs hy).result V (no_index (Proc.devRef .tc main_v54))
      = cat5 (V (Proc.devRef .tc main_v49)) (V (Proc.devRef .tc main_v50)) (V (Proc.devRef .tc main_v51)) (V (Proc.devRef .tc main_v52)) (V (Proc.devRef .tc main_v53)) := by
  rw [StableHlo.nary_result]; rfl

set_option maxHeartbeats 4000000 in
theorem big0_neg : StableHlo.after hostOps1 V (Proc.devRef .tc main_v6) = negStep f0 (V (Proc.devRef .tc main_v2_0)) (V (Proc.devRef .tc main_v2_1)) := by
  host_results; rfl

abbrev tail0 (Y : Valuation τ sig (Elt Ideal)) : Valuation τ sig (Elt Ideal) :=
  StableHlo.after hostOps1_6 (StableHlo.after hostOps1_5 (StableHlo.after hostOps1_4 (StableHlo.after hostOps1_3
    (StableHlo.after hostOps1_2 (StableHlo.after hostOps1_1 Y)))))

set_option maxHeartbeats 4000000 in
theorem pos0 : tail0 (StableHlo.after hostOps1 V) (Proc.devRef .tc main_v80) =
    addf (F := Ideal) (φ := .f32) f0 (posLevelG gather0 96#32 (V (Proc.devRef .tc main_arg0)) (V (Proc.devRef .tc main_arg6))) := by
  host_results [cat_result0]; rfl

end Cert.KernelIdeal.Neg

end
-- ==== Proof.KI.HostStages12.lean ====
import proofs.«168589_j44040594653637_1_alg».proof.Proof.KI.HostStages

noncomputable section

namespace Cert.KernelIdeal.Neg

open Idealize.ShloMosaic Idealize.ShloMosaic.TcCoe
open Idealize.SL Idealize.SL.Sem
open Cert.KernelIdeal Cert.KernelIdeal.Gen
open Cert.Spec

variable (V : Valuation τ sig (Elt Ideal))

theorem cat_result1 (hxs hy) :
    (StableHlo.nary (τ := τ) (Val := Elt Ideal) ![main_v130, main_v131, main_v132, main_v133, main_v134] main_v135
      (fun u => concatenate S8x128x5 2 [⟨S8x128x1, u 0⟩, ⟨S8x128x1, u 1⟩, ⟨S8x128x1, u 2⟩, ⟨S8x128x1, u 3⟩, ⟨S8x128x1, u 4⟩]
        Gen.concatenates_S8x128x1_S8x128x1_S8x128x1_S8x128x1_S8x128x1_S8x128x5_d2) hxs hy).result V (no_index (Proc.devRef .tc main_v135))
      = cat5 (V (Proc.devRef .tc main_v130)) (V (Proc.devRef .tc main_v131)) (V (Proc.devRef .tc main_v132)) (V (Proc.devRef .tc main_v133)) (V (Proc.devRef .tc main_v134)) := by
  rw [StableHlo.nary_result]; rfl

set_option maxHeartbeats 4000000 in
theorem big1_neg : StableHlo.after hostOps2 V (Proc.devRef .tc main_v87) = negStep (V (Proc.devRef .tc main_v6)) (V (Proc.devRef .tc main_v83_0)) (V (Proc.devRef .tc main_v83_1)) := by
  host_results; rfl

abbrev tail1 (Y : Valuation τ sig (Elt Ideal)) : Valuation τ sig (Elt Ideal) :=
  StableHlo.after hostOps2_6 (StableHlo.after hostOps2_5 (StableHlo.after hostOps2_4 (StableHlo.after hostOps2_3
    (StableHlo.after hostOps2_2 (StableHlo.after hostOps2_1 Y)))))

set_option maxHeartbeats 4000000 in
theorem pos1 : tail1 (StableHlo.after hostOps2 V) (Proc.devRef .tc main_v161) =
    addf (F := Ideal) (φ := .f32) (V (Proc.devRef .tc main_v80)) (posLevelG gather1 48#32 (V (Proc.devRef .tc main_arg1)) (V (Proc.devRef .tc main_arg7))) := by
  host_results [cat_result1]; rfl

theorem cat_result2 (hxs hy) :
    (StableHlo.nary (τ := τ) (Val := Elt Ideal) ![main_v211, main_v212, main_v213, main_v214, main_v215] main_v216
      (fun u => concatenate S8x128x5 2 [⟨S8x128x1, u 0⟩, ⟨S8x128x1, u 1⟩, ⟨S8x128x1, u 2⟩, ⟨S8x128x1, u 3⟩, ⟨S8x128x1, u 4⟩]
        Gen.concatenates_S8x128x1_S8x128x1_S8x128x1_S8x128x1_S8x128x1_S8x128x5_d2) hxs hy).result V (no_index (Proc.devRef .tc main_v216))
      = cat5 (V (Proc.devRef .tc main_v211)) (V (Proc.devRef .tc main_v212)) (V (Proc.devRef .tc main_v213)) (V (Proc.devRef .tc main_v214)) (V (Proc.devRef .tc main_v215)) := by
  rw [StableHlo.nary_result]; rfl

set_option maxHeartbeats 4000000 in
theorem big2_neg : StableHlo.after hostOps3 V (Proc.devRef .tc main_v168) = negStep (V (Proc.devRef .tc main_v87)) (V (Proc.devRef .tc main_v164_0)) (V (Proc.devRef .tc main_v164_1)) := by
  host_results; rfl
set_option maxHeartbeats 4000000 in
theorem big2_keep : StableHlo.after hostOps3 V (Proc.devRef .tc main_v161) = V (Proc.devRef .tc main_v161) := by
  host_results
set_option maxHeartbeats 4000000 in
theorem big2_pos : posOf (F := Ideal) (StableHlo.after hostOps3 V (Proc.devRef .tc main_v217)) (StableHlo.after hostOps3 V (Proc.devRef .tc main_v229))
      (StableHlo.after hostOps3 V (Proc.devRef .tc main_v230)) (StableHlo.after hostOps3 V (Proc.devRef .tc main_v172))
    = posLevelG (F := Ideal) gather2 24#32 (V (Proc.devRef .tc main_arg2)) (V (Proc.devRef .tc main_arg8)) := by
  host_results [cat_result2]; rfl

end Cert.KernelIdeal.Neg

end
-- ==== Proof.SpecSums.lean ====
import proofs.«168589_j44040594653637_1_alg».proof.Proof.Spec
import Idealize.ShloMosaic.PureOps.ShapeOps
import Mathlib.Algebra.BigOperators.Group.Finset.Defs

noncomputable section

namespace Cert.Spec

open Idealize.ShloMosaic
open scoped BigOperators

theorem sum_shapeCast₂ {S S' : Shape} {α γ β : Type} [AddCommMonoid β] (h : S.ShapeCasts S') (x : S.Idx → α) (g : S.Idx → γ)
    (f : α → γ → β) :
    ∑ j : S'.Idx, f (shapeCast S' x h j) (shapeCast S' g h j) = ∑ i : S.Idx, f (x i) (g i) :=
  Equiv.sum_comp (Shape.reshapeEquiv h) fun i => f (x i) (g i)

theorem negNum_shapeCast {S S' : Shape} (h : S.ShapeCasts S') (x g : S.Idx → Ideal .f32) :
    negNum (S := S') (shapeCast S' x h) (shapeCast S' g h) = negNum x g :=
  sum_shapeCast₂ h x g nwElt

theorem negDen_shapeCast {S S' : Shape} (h : S.ShapeCasts S') (x g : S.Idx → Ideal .f32) :
    negDen (S := S') (shapeCast S' x h) (shapeCast S' g h) = negDen x g :=
  sum_shapeCast₂ h x g wElt

end Cert.Spec

end
-- ==== Proof.KI.Value.lean ====
import proofs.«168589_j44040594653637_1_alg».proof.Proof.KI.Boundaries
import proofs.«168589_j44040594653637_1_alg».proof.Proof.KI.NegVal0
import proofs.«168589_j44040594653637_1_alg».proof.Proof.KI.NegVal1
import proofs.«168589_j44040594653637_1_alg».proof.Proof.KI.NegVal2
import proofs.«168589_j44040594653637_1_alg».proof.Proof.KI.Keep
import proofs.«168589_j44040594653637_1_alg».proof.Proof.KI.HostStages12
import proofs.«168589_j44040594653637_1_alg».proof.Proof.Spec
import proofs.«168589_j44040594653637_1_alg».proof.Proof.SpecSums

noncomputable section

namespace Cert.KernelIdeal.Neg

open Idealize.ShloMosaic Idealize.ShloMosaic.TcCoe
open Idealize.SL Idealize.SL.Sem
open Cert.KernelIdeal Cert.KernelIdeal.Gen
open Cert.Spec

section
variable (Y : Valuation τ sig (Elt Ideal))

def pair2 (x y : FVec Ideal S1 .f32) : FVec Ideal S2 .f32 :=
  concatenate S2 0 [⟨S1, x⟩, ⟨S1, y⟩] Gen.concatenates_S1_S1_S2_d0

theorem pair_result (ha hb hy) :
    (StableHlo.binary (τ := τ) (Val := Elt Ideal) main_v243 main_v244 main_v245
      (fun a b => concatenate S2 0 [⟨S1, a⟩, ⟨S1, b⟩] Gen.concatenates_S1_S1_S2_d0) ha hb hy).result Y (no_index (Proc.devRef .tc main_v245))
      = pair2 (Y (Proc.devRef .tc main_v243)) (Y (Proc.devRef .tc main_v244)) := by
  rw [StableHlo.binary_result]; rfl

abbrev lastFold : Valuation τ sig (Elt Ideal) :=
  StableHlo.after hostOps3_6 (StableHlo.after hostOps3_5 (StableHlo.after hostOps3_4 (StableHlo.after hostOps3_3
    (StableHlo.after hostOps3_2 (StableHlo.after hostOps3_1 Y)))))

set_option maxHeartbeats 4000000 in
theorem lastFold_losses : lastFold Y (Proc.devRef .tc main_v245) =
    pair2 (single (F := Ideal) (addf (F := Ideal) (φ := .f32) (Y (Proc.devRef .tc main_v161))
        (posOf (Y (Proc.devRef .tc main_v217)) (Y (Proc.devRef .tc main_v229)) (Y (Proc.devRef .tc main_v230)) (Y (Proc.devRef .tc main_v172)))))
      (single (F := Ideal) (Y (Proc.devRef .tc main_v168))) := by
  host_results [↓pair_result]; rfl

set_option maxHeartbeats 4000000 in
theorem lastFold_counts : lastFold Y (Proc.devRef .tc main_v246) = counts (F := Ideal) := by
  host_results; rfl
end
/-- The sums of a reshaped level are the level's sums, so the step adds the level's negative term. -/
theorem negStep_eq {S S' : Shape} (h : S.ShapeCasts S') (x g : S.Idx → Ideal .f32) {X G : S'.Idx → Ideal .f32}
    (hX : X = shapeCast S' x h) (hG : G = shapeCast S' g h) {n d : FVec Ideal S1x1 .f32}
    (hn : n = fun _ => negNum X G) (hd : d = fun _ => negDen X G) {t t' : FVec Ideal S_ .f32} (ht : t = t') :
    negStep t n d = addf (F := Ideal) (φ := .f32) t' (negLevel x g) := by
  subst hX hG hn hd ht; rw [negNum_shapeCast, negDen_shapeCast]; rfl

variable (m : (ℓ : Loc nD τ sig) → Buf (Elt Ideal) ℓ) (ρ : Dev nD → PrngReg)

abbrev a (c : Dev nD) (b : Ref sig .tc) : Buf (Elt Ideal) ((c : Thread nD τ).loc b) := m ((c : Thread nD τ).loc b)

theorem W3_neg (c : Dev nD) : W3 (F := Ideal) m ρ c (Proc.devRef .tc main_v6) =
    addf (F := Ideal) (φ := .f32) f0 (negLevel (a m c main_arg0) (a m c main_arg3)) :=
  (big0_neg (W2 m ρ c)).trans <| negStep_eq _ _ _ (W1_main_v0 m ρ c) (W1_main_v1 m ρ c)
    ((W2_arr m ρ c 2).trans (arrAt0_2 (V1 m ρ) c)) ((W2_arr m ρ c 3).trans (arrAt0_3 (V1 m ρ) c)) rfl

theorem W9_pos (c : Dev nD) : W9 (F := Ideal) m ρ c (Proc.devRef .tc main_v80) =
    addf (F := Ideal) (φ := .f32) f0 (posLevel0 (a m c main_arg0) (a m c main_arg6)) := by
  refine (pos0 (W2 m ρ c)).trans ?_
  rw [W2_arg m ρ c main_arg0 (by decide), W2_arg m ρ c main_arg6 (by decide)]; rfl

theorem W11_neg (c : Dev nD) : W11 (F := Ideal) m ρ c (Proc.devRef .tc main_v87) =
    addf (F := Ideal) (φ := .f32) (addf (F := Ideal) (φ := .f32) f0 (negLevel (a m c main_arg0) (a m c main_arg3)))
      (negLevel (a m c main_arg1) (a m c main_arg4)) :=
  (big1_neg (W10 m ρ c)).trans <| negStep_eq _ _ _ (W9_main_v81 m ρ c) (W9_main_v82 m ρ c)
    ((W10_arr m ρ c 2).trans (arrAt1_2 (V9 m ρ) c)) ((W10_arr m ρ c 3).trans (arrAt1_3 (V9 m ρ) c))
    ((W10_main_v6 m ρ c).trans (W3_neg m ρ c))

theorem W17_pos (c : Dev nD) : W17 (F := Ideal) m ρ c (Proc.devRef .tc main_v161) =
    addf (F := Ideal) (φ := .f32) (addf (F := Ideal) (φ := .f32) f0 (posLevel0 (a m c main_arg0) (a m c main_arg6)))
      (posLevel1 (a m c main_arg1) (a m c main_arg7)) := by
  refine (pos1 (W10 m ρ c)).trans ?_
  rw [W10_main_v80, W9_pos, W10_arg m ρ c main_arg1 (by decide), W10_arg m ρ c main_arg7 (by decide)]; rfl

theorem W25_v245 (c : Dev nD) : W25 (F := Ideal) m ρ c (Proc.devRef .tc main_v245) =
    losses (posLevel0 (a m c main_arg0) (a m c main_arg6)) (posLevel1 (a m c main_arg1) (a m c main_arg7)) (posLevel2 (a m c main_arg2) (a m c main_arg8))
      (negLevel (S := S8x2x96x96x96) (a m c main_arg0) (a m c main_arg3))
      (negLevel (S := S8x2x48x48x48) (a m c main_arg1) (a m c main_arg4))
      (negLevel (S := S8x2x24x24x24) (a m c main_arg2) (a m c main_arg5)) := by
  have hp : posOf (F := Ideal) (W19 m ρ c (Proc.devRef .tc main_v217)) (W19 m ρ c (Proc.devRef .tc main_v229)) (W19 m ρ c (Proc.devRef .tc main_v230))
      (W19 m ρ c (Proc.devRef .tc main_v172)) = _ := big2_pos (W18 m ρ c)
  have hk : W19 m ρ c (Proc.devRef .tc main_v161) = _ := big2_keep (W18 m ρ c)
  have hn : W19 m ρ c (Proc.devRef .tc main_v168) = _ := (big2_neg (W18 m ρ c)).trans <|
    negStep_eq _ _ _ (W17_main_v162 m ρ c) (W17_main_v163 m ρ c) ((W18_arr m ρ c 2).trans (arrAt2_2 (V17 m ρ) c))
      ((W18_arr m ρ c 3).trans (arrAt2_3 (V17 m ρ) c)) ((W18_main_v87 m ρ c).trans (W11_neg m ρ c))
  refine (lastFold_losses (W19 m ρ c)).trans ?_
  rw [hp, hk, hn, W18_main_v161, W17_pos, W18_arg m ρ c main_arg2 (by decide), W18_arg m ρ c main_arg8 (by decide)]; rfl
theorem W25_v246 (c : Dev nD) : W25 (F := Ideal) m ρ c (Proc.devRef .tc main_v246) = counts :=
  lastFold_counts (W19 m ρ c)

end Cert.KernelIdeal.Neg

end
-- ==== Proof.RI.Run.lean ====
import proofs.«168589_j44040594653637_1_alg».proof.Proof.Gen.ReferenceIdeal
import Idealize.ShloMosaic.Lib.StableHlo.Run

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

abbrev ops0 : List (HloOp τ sig (Elt F)) :=
  [ unary main_arg0 main_v0 Host.negf,
    unary main_v0 main_v1 Host.exp,
    nullary main_cst (constant S_ .f32 0x3F800000#32),
    unary main_cst main_v2 (broadcastInDim S8x2x96x96x96 ![] bcast_S_S8x2x96x96x96),
    binary main_v2 main_v1 main_v3 addf,
    nullary main_cst_0 (constant S_ .f32 0x3F800000#32),
    unary main_cst_0 main_v4 (broadcastInDim S8x2x96x96x96 ![] bcast_S_S8x2x96x96x96),
    binary main_v4 main_v3 main_v5 Host.divf,
    nullary main_cst_1 (constant S_ .f32 0xBF800000#32),
    unary main_cst_1 main_v6 (broadcastInDim S8x2x96x96x96 ![] bcast_S_S8x2x96x96x96),
    binary main_arg3 main_v6 main_v7 (cmpf .oeq),
    unary main_v7 main_v8 (uitofp .f32),
    TRef.nullary main_call0.cst (constant S_ .f32 0x00000000#32),
    TRef.unary main_call0.cst main_call0.v0 (broadcastInDim S8x2x96x96x96 ![] bcast_S_S8x2x96x96x96),
    TRef.binary (.of main_arg0 : TRef sig ⟨S8x2x96x96x96, .f32⟩) main_call0.v0 main_call0.v1 maximumf,
    TRef.unary main_call0.cst main_call0.v2 (broadcastInDim S8x2x96x96x96 ![] bcast_S_S8x2x96x96x96),
    TRef.binary (.of main_arg0 : TRef sig ⟨S8x2x96x96x96, .f32⟩) main_call0.v2 main_call0.v3 subf,
    TRef.binary main_call0.v3 main_call0.v3 main_call0.v4 (cmpf .une),
    TRef.unary main_call0.cst main_call0.v5 (broadcastInDim S8x2x96x96x96 ![] bcast_S_S8x2x96x96x96),
    TRef.binary (.of main_arg0 : TRef sig ⟨S8x2x96x96x96, .f32⟩) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select,
    nullary main_cst_2 (constant S_ .f32 0x40000000#32),
    unary main_cst_2 main_v10 (broadcastInDim S8x2x96x96x96 ![] bcast_S_S8x2x96x96x96),
    binary main_v5 main_v10 main_v11 Host.powf,
    binary main_v11 main_v8 main_v12 mulf,
    binary main_v9 main_v12 main_v13 mulf,
    nullary main_cst_3 (constant S_ .f32 0x00000000#32),
    binary main_v13 main_cst_3 main_v14 ((fun x v => Host.reduceAdd x v reducesTo_S8x2x96x96x96_S_d0_1_2_3_4 h_S_)),
    nullary main_cst_4 (constant S_ .f32 0x00000000#32),
    binary main_v12 main_cst_4 main_v15 ((fun x v => Host.reduceAdd x v reducesTo_S8x2x96x96x96_S_d0_1_2_3_4 h_S_)),
    binary main_v14 main_v15 main_v16 Host.divf,
    unary main_arg6 main_v17 ((extractStridedSlice S8x128x1 ![0, 0, 0] · slices_S8x128x4_S8x128x1_0_0_0)),
    reshape main_v17 main_v18 rfl shapeCasts_S8x128x1_S8x128,
    nullary main_c (constantI S_ 32 4294967295#32),
    unary main_c main_v19 (broadcastInDim S8x128 ![] bcast_S_S8x128),
    binary main_v18 main_v19 main_v20 (cmpi .sgt),
    nullary main_c_5 (constantI S_ 32 0#32),
    unary main_c_5 main_v21 (broadcastInDim S8x128x4 ![] bcast_S_S8x128x4),
    binary main_arg6 main_v21 main_v22 maxsi,
    nullary main_v23 (iotaInDim S8 32 0),
    unary main_v23 main_v24 (broadcastInDim S8x1 ![0] bcast_S8_S8x1_0),
    unary main_v22 main_v25 ((extractStridedSlice S8x128x1 ![0, 0, 0] · slices_S8x128x4_S8x128x1_0_0_0)),
    reshape main_v25 main_v26 rfl shapeCasts_S8x128x1_S8x128,
    unary main_v22 main_v27 ((extractStridedSlice S8x128x1 ![0, 0, 1] · slices_S8x128x4_S8x128x1_0_0_1)),
    reshape main_v27 main_v28 rfl shapeCasts_S8x128x1_S8x128,
    unary main_v22 main_v29 ((extractStridedSlice S8x128x1 ![0, 0, 2] · slices_S8x128x4_S8x128x1_0_0_2)),
    reshape main_v29 main_v30 rfl shapeCasts_S8x128x1_S8x128,
    unary main_v22 main_v31 ((extractStridedSlice S8x128x1 ![0, 0, 3] · slices_S8x128x4_S8x128x1_0_0_3)),
    reshape main_v31 main_v32 rfl shapeCasts_S8x128x1_S8x128,
    nullary main_c_6 (constantI S_ 32 0#32),
    unary main_c_6 main_v33 (broadcastInDim S8x1 ![] bcast_S_S8x1),
    binary main_v24 main_v33 main_v34 (cmpi .slt),
    nullary main_c_7 (constantI S_ 32 8#32),
    unary main_c_7 main_v35 (broadcastInDim S8x1 ![] bcast_S_S8x1),
    binary main_v24 main_v35 main_v36 addi,
    ternary main_v34 main_v36 main_v24 main_v37 select,
    nullary main_c_8 (constantI S_ 32 0#32),
    unary main_c_8 main_v38 (broadcastInDim S8x128 ![] bcast_S_S8x128),
    binary main_v26 main_v38 main_v39 (cmpi .slt),
    nullary main_c_9 (constantI S_ 32 2#32),
    unary main_c_9 main_v40 (broadcastInDim S8x128 ![] bcast_S_S8x128),
    binary main_v26 main_v40 main_v41 addi,
    ternary main_v39 main_v41 main_v26 main_v42 select,
    nullary main_c_10 (constantI S_ 32 0#32),
    unary main_c_10 main_v43 (broadcastInDim S8x128 ![] bcast_S_S8x128),
    binary main_v28 main_v43 main_v44 (cmpi .slt),
    nullary main_c_11 (constantI S_ 32 96#32),
    unary main_c_11 main_v45 (broadcastInDim S8x128 ![] bcast_S_S8x128) ]

abbrev ops1 : List (HloOp τ sig (Elt F)) :=
  [ binary main_v28 main_v45 main_v46 addi,
    ternary main_v44 main_v46 main_v28 main_v47 select,
    nullary main_c_12 (constantI S_ 32 0#32),
    unary main_c_12 main_v48 (broadcastInDim S8x128 ![] bcast_S_S8x128),
    binary main_v30 main_v48 main_v49 (cmpi .slt),
    nullary main_c_13 (constantI S_ 32 96#32),
    unary main_c_13 main_v50 (broadcastInDim S8x128 ![] bcast_S_S8x128),
    binary main_v30 main_v50 main_v51 addi,
    ternary main_v49 main_v51 main_v30 main_v52 select,
    nullary main_c_14 (constantI S_ 32 0#32),
    unary main_c_14 main_v53 (broadcastInDim S8x128 ![] bcast_S_S8x128),
    binary main_v32 main_v53 main_v54 (cmpi .slt),
    nullary main_c_15 (constantI S_ 32 96#32),
    unary main_c_15 main_v55 (broadcastInDim S8x128 ![] bcast_S_S8x128),
    binary main_v32 main_v55 main_v56 addi,
    ternary main_v54 main_v56 main_v32 main_v57 select,
    unary main_v37 main_v58 (broadcastInDim S8x128 ![0, 1] bcast_S8x1_S8x128_0_1),
    unary main_v58 main_v59 (broadcastInDim S8x128x1 ![0, 1] bcast_S8x128_S8x128x1_0_1),
    unary main_v42 main_v60 (broadcastInDim S8x128x1 ![0, 1] bcast_S8x128_S8x128x1_0_1),
    unary main_v47 main_v61 (broadcastInDim S8x128x1 ![0, 1] bcast_S8x128_S8x128x1_0_1),
    unary main_v52 main_v62 (broadcastInDim S8x128x1 ![0, 1] bcast_S8x128_S8x128x1_0_1),
    unary main_v57 main_v63 (broadcastInDim S8x128x1 ![0, 1] bcast_S8x128_S8x128x1_0_1),
    nary ![main_v59, main_v60, main_v61, main_v62, main_v63] main_v64 (fun u => concatenate S8x128x5 2 [⟨S8x128x1, u 0⟩, ⟨S8x128x1, u 1⟩, ⟨S8x128x1, u 2⟩, ⟨S8x128x1, u 3⟩, ⟨S8x128x1, u 4⟩] concatenates_S8x128x1_S8x128x1_S8x128x1_S8x128x1_S8x128x1_S8x128x5_d2),
    binary main_arg0 main_v64 main_v65 ((fun x i => Host.gather gather_S8x2x96x96x96_S8x128x5_S8x128_n_01234_n_n_01234_2_11111 x i)),
    unary main_v65 main_v66 Host.negf,
    unary main_v66 main_v67 Host.exp,
    nullary main_cst_16 (constant S_ .f32 0x3F800000#32),
    unary main_cst_16 main_v68 (broadcastInDim S8x128 ![] bcast_S_S8x128),
    binary main_v68 main_v67 main_v69 addf,
    nullary main_cst_17 (constant S_ .f32 0x3F800000#32),
    unary main_cst_17 main_v70 (broadcastInDim S8x128 ![] bcast_S_S8x128),
    binary main_v70 main_v69 main_v71 Host.divf,
    nullary main_cst_18 (constant S_ .f32 0x3F800000#32),
    unary main_cst_18 main_v72 (broadcastInDim S8x128 ![] bcast_S_S8x128),
    binary main_v72 main_v71 main_v73 subf,
    nullary main_cst_19 (constant S_ .f32 0x40000000#32),
    unary main_cst_19 main_v74 (broadcastInDim S8x128 ![] bcast_S_S8x128),
    binary main_v73 main_v74 main_v75 Host.powf,
    unary main_v20 main_v76 (uitofp .f32),
    binary main_v75 main_v76 main_v77 mulf,
    nullary main_cst_20 (constant S_ .f32 0x00000000#32),
    binary main_v77 main_cst_20 main_v78 ((fun x v => Host.reduceAdd x v reducesTo_S8x128_S8_d1 h_S_)),
    TRef.unary (.of main_v65 : TRef sig ⟨S8x128, .f32⟩) main_call1.v0 Host.negf,
    TRef.nullary main_call1.call0.cst (constant S_ .f32 0x00000000#32),
    TRef.unary main_call1.call0.cst main_call1.call0.v0 (broadcastInDim S8x128 ![] bcast_S_S8x128),
    TRef.binary main_call1.v0 main_call1.call0.v0 main_call1.call0.v1 maximumf,
    TRef.unary main_call1.call0.cst main_call1.call0.v2 (broadcastInDim S8x128 ![] bcast_S_S8x128),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S8x128 ![] bcast_S_S8x128),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    binary main_v79 main_v77 main_v80 mulf,
    nullary main_cst_21 (constant S_ .f32 0x00000000#32),
    binary main_v80 main_cst_21 main_v81 ((fun x v => Host.reduceAdd x v reducesTo_S8x128_S8_d1 h_S_)),
    nullary main_c_22 (constantI S_ 1 0#1),
    binary main_v20 main_c_22 main_v82 ((fun x v => Host.reduce IntOp.ori x v reducesTo_S8x128_S8_d1 h_S_)),
    unary main_v81 main_v83 Host.negf,
    nullary main_cst_23 (constant S_ .f32 0x00000000#32),
    unary main_cst_23 main_v84 (broadcastInDim S8 ![] bcast_S_S8),
    binary main_v78 main_v84 main_v85 (cmpf .ogt),
    nullary main_cst_24 (constant S_ .f32 0x3F800000#32),
    TRef.unary (.of main_cst_24 : TRef sig ⟨S_, .f32⟩) main_call2.v0 id,
    TRef.unary main_call2.v0 main_call2.v1 (broadcastInDim S8 ![] bcast_S_S8),
    TRef.ternary (.of main_v85 : TRef sig ⟨S8, .i1⟩) (.of main_v78 : TRef sig ⟨S8, .f32⟩) main_call2.v1 main_call2.v2 select,
    binary main_v83 main_v86 main_v87 Host.divf,
    nullary main_cst_25 (constant S_ .f32 0x00000000#32),
    TRef.unary (.of main_cst_25 : TRef sig ⟨S_, .f32⟩) main_call3.v0 id,
    TRef.unary main_call3.v0 main_call3.v1 (broadcastInDim S8 ![] bcast_S_S8),
    TRef.ternary (.of main_v82 : TRef sig ⟨S8, .i1⟩) (.of main_v87 : TRef sig ⟨S8, .f32⟩) main_call3.v1 main_call3.v2 select,
    nullary main_cst_26 (constant S_ .f32 0x00000000#32),
    binary main_v88 main_cst_26 main_v89 ((fun x v => Host.reduceAdd x v reducesTo_S8_S_d0 h_S_)),
    nullary main_cst_27 (constant S_ .f32 0x00000000#32) ]

abbrev ops2 : List (HloOp τ sig (Elt F)) :=
  [ binary main_cst_27 main_v89 main_v90 addf,
    nullary main_cst_28 (constant S_ .f32 0x00000000#32),
    binary main_cst_28 main_v16 main_v91 addf,
    unary main_arg1 main_v92 Host.negf,
    unary main_v92 main_v93 Host.exp,
    nullary main_cst_29 (constant S_ .f32 0x3F800000#32),
    unary main_cst_29 main_v94 (broadcastInDim S8x2x48x48x48 ![] bcast_S_S8x2x48x48x48),
    binary main_v94 main_v93 main_v95 addf,
    nullary main_cst_30 (constant S_ .f32 0x3F800000#32),
    unary main_cst_30 main_v96 (broadcastInDim S8x2x48x48x48 ![] bcast_S_S8x2x48x48x48),
    binary main_v96 main_v95 main_v97 Host.divf,
    nullary main_cst_31 (constant S_ .f32 0xBF800000#32),
    unary main_cst_31 main_v98 (broadcastInDim S8x2x48x48x48 ![] bcast_S_S8x2x48x48x48),
    binary main_arg4 main_v98 main_v99 (cmpf .oeq),
    unary main_v99 main_v100 (uitofp .f32),
    TRef.nullary main_call4.cst (constant S_ .f32 0x00000000#32),
    TRef.unary main_call4.cst main_call4.v0 (broadcastInDim S8x2x48x48x48 ![] bcast_S_S8x2x48x48x48),
    TRef.binary (.of main_arg1 : TRef sig ⟨S8x2x48x48x48, .f32⟩) main_call4.v0 main_call4.v1 maximumf,
    TRef.unary main_call4.cst main_call4.v2 (broadcastInDim S8x2x48x48x48 ![] bcast_S_S8x2x48x48x48),
    TRef.binary (.of main_arg1 : TRef sig ⟨S8x2x48x48x48, .f32⟩) main_call4.v2 main_call4.v3 subf,
    TRef.binary main_call4.v3 main_call4.v3 main_call4.v4 (cmpf .une),
    TRef.unary main_call4.cst main_call4.v5 (broadcastInDim S8x2x48x48x48 ![] bcast_S_S8x2x48x48x48),
    TRef.binary (.of main_arg1 : TRef sig ⟨S8x2x48x48x48, .f32⟩) main_call4.v5 main_call4.v6 addf,
    TRef.unary main_call4.v3 main_call4.v7 Host.absf,
    TRef.unary main_call4.v7 main_call4.v8 Host.negf,
    TRef.unary main_call4.v8 main_call4.v9 Host.exp,
    TRef.unary main_call4.v9 main_call4.v10 Host.log1p,
    TRef.binary main_call4.v1 main_call4.v10 main_call4.v11 addf,
    TRef.ternary main_call4.v4 main_call4.v6 main_call4.v11 main_call4.v12 select,
    nullary main_cst_32 (constant S_ .f32 0x40000000#32),
    unary main_cst_32 main_v102 (broadcastInDim S8x2x48x48x48 ![] bcast_S_S8x2x48x48x48),
    binary main_v97 main_v102 main_v103 Host.powf,
    binary main_v103 main_v100 main_v104 mulf,
    binary main_v101 main_v104 main_v105 mulf,
    nullary main_cst_33 (constant S_ .f32 0x00000000#32),
    binary main_v105 main_cst_33 main_v106 ((fun x v => Host.reduceAdd x v reducesTo_S8x2x48x48x48_S_d0_1_2_3_4 h_S_)),
    nullary main_cst_34 (constant S_ .f32 0x00000000#32),
    binary main_v104 main_cst_34 main_v107 ((fun x v => Host.reduceAdd x v reducesTo_S8x2x48x48x48_S_d0_1_2_3_4 h_S_)),
    binary main_v106 main_v107 main_v108 Host.divf,
    unary main_arg7 main_v109 ((extractStridedSlice S8x128x1 ![0, 0, 0] · slices_S8x128x4_S8x128x1_0_0_0)),
    reshape main_v109 main_v110 rfl shapeCasts_S8x128x1_S8x128,
    nullary main_c_35 (constantI S_ 32 4294967295#32),
    unary main_c_35 main_v111 (broadcastInDim S8x128 ![] bcast_S_S8x128),
    binary main_v110 main_v111 main_v112 (cmpi .sgt),
    nullary main_c_36 (constantI S_ 32 0#32),
    unary main_c_36 main_v113 (broadcastInDim S8x128x4 ![] bcast_S_S8x128x4),
    binary main_arg7 main_v113 main_v114 maxsi,
    nullary main_v115 (iotaInDim S8 32 0),
    unary main_v115 main_v116 (broadcastInDim S8x1 ![0] bcast_S8_S8x1_0),
    unary main_v114 main_v117 ((extractStridedSlice S8x128x1 ![0, 0, 0] · slices_S8x128x4_S8x128x1_0_0_0)),
    reshape main_v117 main_v118 rfl shapeCasts_S8x128x1_S8x128,
    unary main_v114 main_v119 ((extractStridedSlice S8x128x1 ![0, 0, 1] · slices_S8x128x4_S8x128x1_0_0_1)),
    reshape main_v119 main_v120 rfl shapeCasts_S8x128x1_S8x128,
    unary main_v114 main_v121 ((extractStridedSlice S8x128x1 ![0, 0, 2] · slices_S8x128x4_S8x128x1_0_0_2)),
    reshape main_v121 main_v122 rfl shapeCasts_S8x128x1_S8x128,
    unary main_v114 main_v123 ((extractStridedSlice S8x128x1 ![0, 0, 3] · slices_S8x128x4_S8x128x1_0_0_3)),
    reshape main_v123 main_v124 rfl shapeCasts_S8x128x1_S8x128,
    nullary main_c_37 (constantI S_ 32 0#32),
    unary main_c_37 main_v125 (broadcastInDim S8x1 ![] bcast_S_S8x1),
    binary main_v116 main_v125 main_v126 (cmpi .slt),
    nullary main_c_38 (constantI S_ 32 8#32),
    unary main_c_38 main_v127 (broadcastInDim S8x1 ![] bcast_S_S8x1),
    binary main_v116 main_v127 main_v128 addi,
    ternary main_v126 main_v128 main_v116 main_v129 select,
    nullary main_c_39 (constantI S_ 32 0#32),
    unary main_c_39 main_v130 (broadcastInDim S8x128 ![] bcast_S_S8x128),
    binary main_v118 main_v130 main_v131 (cmpi .slt),
    nullary main_c_40 (constantI S_ 32 2#32),
    unary main_c_40 main_v132 (broadcastInDim S8x128 ![] bcast_S_S8x128),
    binary main_v118 main_v132 main_v133 addi,
    ternary main_v131 main_v133 main_v118 main_v134 select,
    nullary main_c_41 (constantI S_ 32 0#32),
    unary main_c_41 main_v135 (broadcastInDim S8x128 ![] bcast_S_S8x128) ]

abbrev ops3 : List (HloOp τ sig (Elt F)) :=
  [ binary main_v120 main_v135 main_v136 (cmpi .slt),
    nullary main_c_42 (constantI S_ 32 48#32),
    unary main_c_42 main_v137 (broadcastInDim S8x128 ![] bcast_S_S8x128),
    binary main_v120 main_v137 main_v138 addi,
    ternary main_v136 main_v138 main_v120 main_v139 select,
    nullary main_c_43 (constantI S_ 32 0#32),
    unary main_c_43 main_v140 (broadcastInDim S8x128 ![] bcast_S_S8x128),
    binary main_v122 main_v140 main_v141 (cmpi .slt),
    nullary main_c_44 (constantI S_ 32 48#32),
    unary main_c_44 main_v142 (broadcastInDim S8x128 ![] bcast_S_S8x128),
    binary main_v122 main_v142 main_v143 addi,
    ternary main_v141 main_v143 main_v122 main_v144 select,
    nullary main_c_45 (constantI S_ 32 0#32),
    unary main_c_45 main_v145 (broadcastInDim S8x128 ![] bcast_S_S8x128),
    binary main_v124 main_v145 main_v146 (cmpi .slt),
    nullary main_c_46 (constantI S_ 32 48#32),
    unary main_c_46 main_v147 (broadcastInDim S8x128 ![] bcast_S_S8x128),
    binary main_v124 main_v147 main_v148 addi,
    ternary main_v146 main_v148 main_v124 main_v149 select,
    unary main_v129 main_v150 (broadcastInDim S8x128 ![0, 1] bcast_S8x1_S8x128_0_1),
    unary main_v150 main_v151 (broadcastInDim S8x128x1 ![0, 1] bcast_S8x128_S8x128x1_0_1),
    unary main_v134 main_v152 (broadcastInDim S8x128x1 ![0, 1] bcast_S8x128_S8x128x1_0_1),
    unary main_v139 main_v153 (broadcastInDim S8x128x1 ![0, 1] bcast_S8x128_S8x128x1_0_1),
    unary main_v144 main_v154 (broadcastInDim S8x128x1 ![0, 1] bcast_S8x128_S8x128x1_0_1),
    unary main_v149 main_v155 (broadcastInDim S8x128x1 ![0, 1] bcast_S8x128_S8x128x1_0_1),
    nary ![main_v151, main_v152, main_v153, main_v154, main_v155] main_v156 (fun u => concatenate S8x128x5 2 [⟨S8x128x1, u 0⟩, ⟨S8x128x1, u 1⟩, ⟨S8x128x1, u 2⟩, ⟨S8x128x1, u 3⟩, ⟨S8x128x1, u 4⟩] concatenates_S8x128x1_S8x128x1_S8x128x1_S8x128x1_S8x128x1_S8x128x5_d2),
    binary main_arg1 main_v156 main_v157 ((fun x i => Host.gather gather_S8x2x48x48x48_S8x128x5_S8x128_n_01234_n_n_01234_2_11111 x i)),
    unary main_v157 main_v158 Host.negf,
    unary main_v158 main_v159 Host.exp,
    nullary main_cst_47 (constant S_ .f32 0x3F800000#32),
    unary main_cst_47 main_v160 (broadcastInDim S8x128 ![] bcast_S_S8x128),
    binary main_v160 main_v159 main_v161 addf,
    nullary main_cst_48 (constant S_ .f32 0x3F800000#32),
    unary main_cst_48 main_v162 (broadcastInDim S8x128 ![] bcast_S_S8x128),
    binary main_v162 main_v161 main_v163 Host.divf,
    nullary main_cst_49 (constant S_ .f32 0x3F800000#32),
    unary main_cst_49 main_v164 (broadcastInDim S8x128 ![] bcast_S_S8x128),
    binary main_v164 main_v163 main_v165 subf,
    nullary main_cst_50 (constant S_ .f32 0x40000000#32),
    unary main_cst_50 main_v166 (broadcastInDim S8x128 ![] bcast_S_S8x128),
    binary main_v165 main_v166 main_v167 Host.powf,
    unary main_v112 main_v168 (uitofp .f32),
    binary main_v167 main_v168 main_v169 mulf,
    nullary main_cst_51 (constant S_ .f32 0x00000000#32),
    binary main_v169 main_cst_51 main_v170 ((fun x v => Host.reduceAdd x v reducesTo_S8x128_S8_d1 h_S_)),
    TRef.unary (.of main_v157 : TRef sig ⟨S8x128, .f32⟩) main_call5.v0 Host.negf,
    TRef.nullary main_call5.call0.cst (constant S_ .f32 0x00000000#32),
    TRef.unary main_call5.call0.cst main_call5.call0.v0 (broadcastInDim S8x128 ![] bcast_S_S8x128),
    TRef.binary main_call5.v0 main_call5.call0.v0 main_call5.call0.v1 maximumf,
    TRef.unary main_call5.call0.cst main_call5.call0.v2 (broadcastInDim S8x128 ![] bcast_S_S8x128),
    TRef.binary main_call5.v0 main_call5.call0.v2 main_call5.call0.v3 subf,
    TRef.binary main_call5.call0.v3 main_call5.call0.v3 main_call5.call0.v4 (cmpf .une),
    TRef.unary main_call5.call0.cst main_call5.call0.v5 (broadcastInDim S8x128 ![] bcast_S_S8x128),
    TRef.binary main_call5.v0 main_call5.call0.v5 main_call5.call0.v6 addf,
    TRef.unary main_call5.call0.v3 main_call5.call0.v7 Host.absf,
    TRef.unary main_call5.call0.v7 main_call5.call0.v8 Host.negf,
    TRef.unary main_call5.call0.v8 main_call5.call0.v9 Host.exp,
    TRef.unary main_call5.call0.v9 main_call5.call0.v10 Host.log1p,
    TRef.binary main_call5.call0.v1 main_call5.call0.v10 main_call5.call0.v11 addf,
    TRef.ternary main_call5.call0.v4 main_call5.call0.v6 main_call5.call0.v11 main_call5.call0.v12 select,
    TRef.unary main_call5.call0.v12 main_call5.v2 Host.negf,
    binary main_v171 main_v169 main_v172 mulf,
    nullary main_cst_52 (constant S_ .f32 0x00000000#32),
    binary main_v172 main_cst_52 main_v173 ((fun x v => Host.reduceAdd x v reducesTo_S8x128_S8_d1 h_S_)),
    nullary main_c_53 (constantI S_ 1 0#1),
    binary main_v112 main_c_53 main_v174 ((fun x v => Host.reduce IntOp.ori x v reducesTo_S8x128_S8_d1 h_S_)),
    unary main_v173 main_v175 Host.negf,
    nullary main_cst_54 (constant S_ .f32 0x00000000#32),
    unary main_cst_54 main_v176 (broadcastInDim S8 ![] bcast_S_S8),
    binary main_v170 main_v176 main_v177 (cmpf .ogt),
    nullary main_cst_55 (constant S_ .f32 0x3F800000#32),
    TRef.unary (.of main_cst_55 : TRef sig ⟨S_, .f32⟩) main_call6.v0 id,
    TRef.unary main_call6.v0 main_call6.v1 (broadcastInDim S8 ![] bcast_S_S8),
    TRef.ternary (.of main_v177 : TRef sig ⟨S8, .i1⟩) (.of main_v170 : TRef sig ⟨S8, .f32⟩) main_call6.v1 main_call6.v2 select,
    binary main_v175 main_v178 main_v179 Host.divf,
    nullary main_cst_56 (constant S_ .f32 0x00000000#32),
    TRef.unary (.of main_cst_56 : TRef sig ⟨S_, .f32⟩) main_call7.v0 id,
    TRef.unary main_call7.v0 main_call7.v1 (broadcastInDim S8 ![] bcast_S_S8),
    TRef.ternary (.of main_v174 : TRef sig ⟨S8, .i1⟩) (.of main_v179 : TRef sig ⟨S8, .f32⟩) main_call7.v1 main_call7.v2 select ]

abbrev ops4 : List (HloOp τ sig (Elt F)) :=
  [ nullary main_cst_57 (constant S_ .f32 0x00000000#32),
    binary main_v180 main_cst_57 main_v181 ((fun x v => Host.reduceAdd x v reducesTo_S8_S_d0 h_S_)),
    binary main_v90 main_v181 main_v182 addf,
    binary main_v91 main_v108 main_v183 addf,
    unary main_arg2 main_v184 Host.negf,
    unary main_v184 main_v185 Host.exp,
    nullary main_cst_58 (constant S_ .f32 0x3F800000#32),
    unary main_cst_58 main_v186 (broadcastInDim S8x2x24x24x24 ![] bcast_S_S8x2x24x24x24),
    binary main_v186 main_v185 main_v187 addf,
    nullary main_cst_59 (constant S_ .f32 0x3F800000#32),
    unary main_cst_59 main_v188 (broadcastInDim S8x2x24x24x24 ![] bcast_S_S8x2x24x24x24),
    binary main_v188 main_v187 main_v189 Host.divf,
    nullary main_cst_60 (constant S_ .f32 0xBF800000#32),
    unary main_cst_60 main_v190 (broadcastInDim S8x2x24x24x24 ![] bcast_S_S8x2x24x24x24),
    binary main_arg5 main_v190 main_v191 (cmpf .oeq),
    unary main_v191 main_v192 (uitofp .f32),
    TRef.nullary main_call8.cst (constant S_ .f32 0x00000000#32),
    TRef.unary main_call8.cst main_call8.v0 (broadcastInDim S8x2x24x24x24 ![] bcast_S_S8x2x24x24x24),
    TRef.binary (.of main_arg2 : TRef sig ⟨S8x2x24x24x24, .f32⟩) main_call8.v0 main_call8.v1 maximumf,
    TRef.unary main_call8.cst main_call8.v2 (broadcastInDim S8x2x24x24x24 ![] bcast_S_S8x2x24x24x24),
    TRef.binary (.of main_arg2 : TRef sig ⟨S8x2x24x24x24, .f32⟩) main_call8.v2 main_call8.v3 subf,
    TRef.binary main_call8.v3 main_call8.v3 main_call8.v4 (cmpf .une),
    TRef.unary main_call8.cst main_call8.v5 (broadcastInDim S8x2x24x24x24 ![] bcast_S_S8x2x24x24x24),
    TRef.binary (.of main_arg2 : TRef sig ⟨S8x2x24x24x24, .f32⟩) main_call8.v5 main_call8.v6 addf,
    TRef.unary main_call8.v3 main_call8.v7 Host.absf,
    TRef.unary main_call8.v7 main_call8.v8 Host.negf,
    TRef.unary main_call8.v8 main_call8.v9 Host.exp,
    TRef.unary main_call8.v9 main_call8.v10 Host.log1p,
    TRef.binary main_call8.v1 main_call8.v10 main_call8.v11 addf,
    TRef.ternary main_call8.v4 main_call8.v6 main_call8.v11 main_call8.v12 select,
    nullary main_cst_61 (constant S_ .f32 0x40000000#32),
    unary main_cst_61 main_v194 (broadcastInDim S8x2x24x24x24 ![] bcast_S_S8x2x24x24x24),
    binary main_v189 main_v194 main_v195 Host.powf,
    binary main_v195 main_v192 main_v196 mulf,
    binary main_v193 main_v196 main_v197 mulf,
    nullary main_cst_62 (constant S_ .f32 0x00000000#32),
    binary main_v197 main_cst_62 main_v198 ((fun x v => Host.reduceAdd x v reducesTo_S8x2x24x24x24_S_d0_1_2_3_4 h_S_)),
    nullary main_cst_63 (constant S_ .f32 0x00000000#32),
    binary main_v196 main_cst_63 main_v199 ((fun x v => Host.reduceAdd x v reducesTo_S8x2x24x24x24_S_d0_1_2_3_4 h_S_)),
    binary main_v198 main_v199 main_v200 Host.divf,
    unary main_arg8 main_v201 ((extractStridedSlice S8x128x1 ![0, 0, 0] · slices_S8x128x4_S8x128x1_0_0_0)),
    reshape main_v201 main_v202 rfl shapeCasts_S8x128x1_S8x128,
    nullary main_c_64 (constantI S_ 32 4294967295#32),
    unary main_c_64 main_v203 (broadcastInDim S8x128 ![] bcast_S_S8x128),
    binary main_v202 main_v203 main_v204 (cmpi .sgt),
    nullary main_c_65 (constantI S_ 32 0#32),
    unary main_c_65 main_v205 (broadcastInDim S8x128x4 ![] bcast_S_S8x128x4),
    binary main_arg8 main_v205 main_v206 maxsi,
    nullary main_v207 (iotaInDim S8 32 0),
    unary main_v207 main_v208 (broadcastInDim S8x1 ![0] bcast_S8_S8x1_0),
    unary main_v206 main_v209 ((extractStridedSlice S8x128x1 ![0, 0, 0] · slices_S8x128x4_S8x128x1_0_0_0)),
    reshape main_v209 main_v210 rfl shapeCasts_S8x128x1_S8x128,
    unary main_v206 main_v211 ((extractStridedSlice S8x128x1 ![0, 0, 1] · slices_S8x128x4_S8x128x1_0_0_1)),
    reshape main_v211 main_v212 rfl shapeCasts_S8x128x1_S8x128,
    unary main_v206 main_v213 ((extractStridedSlice S8x128x1 ![0, 0, 2] · slices_S8x128x4_S8x128x1_0_0_2)),
    reshape main_v213 main_v214 rfl shapeCasts_S8x128x1_S8x128,
    unary main_v206 main_v215 ((extractStridedSlice S8x128x1 ![0, 0, 3] · slices_S8x128x4_S8x128x1_0_0_3)),
    reshape main_v215 main_v216 rfl shapeCasts_S8x128x1_S8x128,
    nullary main_c_66 (constantI S_ 32 0#32),
    unary main_c_66 main_v217 (broadcastInDim S8x1 ![] bcast_S_S8x1),
    binary main_v208 main_v217 main_v218 (cmpi .slt),
    nullary main_c_67 (constantI S_ 32 8#32),
    unary main_c_67 main_v219 (broadcastInDim S8x1 ![] bcast_S_S8x1),
    binary main_v208 main_v219 main_v220 addi,
    ternary main_v218 main_v220 main_v208 main_v221 select,
    nullary main_c_68 (constantI S_ 32 0#32),
    unary main_c_68 main_v222 (broadcastInDim S8x128 ![] bcast_S_S8x128),
    binary main_v210 main_v222 main_v223 (cmpi .slt),
    nullary main_c_69 (constantI S_ 32 2#32),
    unary main_c_69 main_v224 (broadcastInDim S8x128 ![] bcast_S_S8x128),
    binary main_v210 main_v224 main_v225 addi,
    ternary main_v223 main_v225 main_v210 main_v226 select,
    nullary main_c_70 (constantI S_ 32 0#32) ]

abbrev ops5 : List (HloOp τ sig (Elt F)) :=
  [ unary main_c_70 main_v227 (broadcastInDim S8x128 ![] bcast_S_S8x128),
    binary main_v212 main_v227 main_v228 (cmpi .slt),
    nullary main_c_71 (constantI S_ 32 24#32),
    unary main_c_71 main_v229 (broadcastInDim S8x128 ![] bcast_S_S8x128),
    binary main_v212 main_v229 main_v230 addi,
    ternary main_v228 main_v230 main_v212 main_v231 select,
    nullary main_c_72 (constantI S_ 32 0#32),
    unary main_c_72 main_v232 (broadcastInDim S8x128 ![] bcast_S_S8x128),
    binary main_v214 main_v232 main_v233 (cmpi .slt),
    nullary main_c_73 (constantI S_ 32 24#32),
    unary main_c_73 main_v234 (broadcastInDim S8x128 ![] bcast_S_S8x128),
    binary main_v214 main_v234 main_v235 addi,
    ternary main_v233 main_v235 main_v214 main_v236 select,
    nullary main_c_74 (constantI S_ 32 0#32),
    unary main_c_74 main_v237 (broadcastInDim S8x128 ![] bcast_S_S8x128),
    binary main_v216 main_v237 main_v238 (cmpi .slt),
    nullary main_c_75 (constantI S_ 32 24#32),
    unary main_c_75 main_v239 (broadcastInDim S8x128 ![] bcast_S_S8x128),
    binary main_v216 main_v239 main_v240 addi,
    ternary main_v238 main_v240 main_v216 main_v241 select,
    unary main_v221 main_v242 (broadcastInDim S8x128 ![0, 1] bcast_S8x1_S8x128_0_1),
    unary main_v242 main_v243 (broadcastInDim S8x128x1 ![0, 1] bcast_S8x128_S8x128x1_0_1),
    unary main_v226 main_v244 (broadcastInDim S8x128x1 ![0, 1] bcast_S8x128_S8x128x1_0_1),
    unary main_v231 main_v245 (broadcastInDim S8x128x1 ![0, 1] bcast_S8x128_S8x128x1_0_1),
    unary main_v236 main_v246 (broadcastInDim S8x128x1 ![0, 1] bcast_S8x128_S8x128x1_0_1),
    unary main_v241 main_v247 (broadcastInDim S8x128x1 ![0, 1] bcast_S8x128_S8x128x1_0_1),
    nary ![main_v243, main_v244, main_v245, main_v246, main_v247] main_v248 (fun u => concatenate S8x128x5 2 [⟨S8x128x1, u 0⟩, ⟨S8x128x1, u 1⟩, ⟨S8x128x1, u 2⟩, ⟨S8x128x1, u 3⟩, ⟨S8x128x1, u 4⟩] concatenates_S8x128x1_S8x128x1_S8x128x1_S8x128x1_S8x128x1_S8x128x5_d2),
    binary main_arg2 main_v248 main_v249 ((fun x i => Host.gather gather_S8x2x24x24x24_S8x128x5_S8x128_n_01234_n_n_01234_2_11111 x i)),
    unary main_v249 main_v250 Host.negf,
    unary main_v250 main_v251 Host.exp,
    nullary main_cst_76 (constant S_ .f32 0x3F800000#32),
    unary main_cst_76 main_v252 (broadcastInDim S8x128 ![] bcast_S_S8x128),
    binary main_v252 main_v251 main_v253 addf,
    nullary main_cst_77 (constant S_ .f32 0x3F800000#32),
    unary main_cst_77 main_v254 (broadcastInDim S8x128 ![] bcast_S_S8x128),
    binary main_v254 main_v253 main_v255 Host.divf,
    nullary main_cst_78 (constant S_ .f32 0x3F800000#32),
    unary main_cst_78 main_v256 (broadcastInDim S8x128 ![] bcast_S_S8x128),
    binary main_v256 main_v255 main_v257 subf,
    nullary main_cst_79 (constant S_ .f32 0x40000000#32),
    unary main_cst_79 main_v258 (broadcastInDim S8x128 ![] bcast_S_S8x128),
    binary main_v257 main_v258 main_v259 Host.powf,
    unary main_v204 main_v260 (uitofp .f32),
    binary main_v259 main_v260 main_v261 mulf,
    nullary main_cst_80 (constant S_ .f32 0x00000000#32),
    binary main_v261 main_cst_80 main_v262 ((fun x v => Host.reduceAdd x v reducesTo_S8x128_S8_d1 h_S_)),
    TRef.unary (.of main_v249 : TRef sig ⟨S8x128, .f32⟩) main_call9.v0 Host.negf,
    TRef.nullary main_call9.call0.cst (constant S_ .f32 0x00000000#32),
    TRef.unary main_call9.call0.cst main_call9.call0.v0 (broadcastInDim S8x128 ![] bcast_S_S8x128),
    TRef.binary main_call9.v0 main_call9.call0.v0 main_call9.call0.v1 maximumf,
    TRef.unary main_call9.call0.cst main_call9.call0.v2 (broadcastInDim S8x128 ![] bcast_S_S8x128),
    TRef.binary main_call9.v0 main_call9.call0.v2 main_call9.call0.v3 subf,
    TRef.binary main_call9.call0.v3 main_call9.call0.v3 main_call9.call0.v4 (cmpf .une),
    TRef.unary main_call9.call0.cst main_call9.call0.v5 (broadcastInDim S8x128 ![] bcast_S_S8x128),
    TRef.binary main_call9.v0 main_call9.call0.v5 main_call9.call0.v6 addf,
    TRef.unary main_call9.call0.v3 main_call9.call0.v7 Host.absf,
    TRef.unary main_call9.call0.v7 main_call9.call0.v8 Host.negf,
    TRef.unary main_call9.call0.v8 main_call9.call0.v9 Host.exp,
    TRef.unary main_call9.call0.v9 main_call9.call0.v10 Host.log1p,
    TRef.binary main_call9.call0.v1 main_call9.call0.v10 main_call9.call0.v11 addf,
    TRef.ternary main_call9.call0.v4 main_call9.call0.v6 main_call9.call0.v11 main_call9.call0.v12 select,
    TRef.unary main_call9.call0.v12 main_call9.v2 Host.negf,
    binary main_v263 main_v261 main_v264 mulf,
    nullary main_cst_81 (constant S_ .f32 0x00000000#32),
    binary main_v264 main_cst_81 main_v265 ((fun x v => Host.reduceAdd x v reducesTo_S8x128_S8_d1 h_S_)),
    nullary main_c_82 (constantI S_ 1 0#1),
    binary main_v204 main_c_82 main_v266 ((fun x v => Host.reduce IntOp.ori x v reducesTo_S8x128_S8_d1 h_S_)),
    unary main_v265 main_v267 Host.negf,
    nullary main_cst_83 (constant S_ .f32 0x00000000#32),
    unary main_cst_83 main_v268 (broadcastInDim S8 ![] bcast_S_S8),
    binary main_v262 main_v268 main_v269 (cmpf .ogt),
    nullary main_cst_84 (constant S_ .f32 0x3F800000#32),
    TRef.unary (.of main_cst_84 : TRef sig ⟨S_, .f32⟩) main_call10.v0 id,
    TRef.unary main_call10.v0 main_call10.v1 (broadcastInDim S8 ![] bcast_S_S8),
    TRef.ternary (.of main_v269 : TRef sig ⟨S8, .i1⟩) (.of main_v262 : TRef sig ⟨S8, .f32⟩) main_call10.v1 main_call10.v2 select,
    binary main_v267 main_v270 main_v271 Host.divf,
    nullary main_cst_85 (constant S_ .f32 0x00000000#32) ]

abbrev ops6 : List (HloOp τ sig (Elt F)) :=
  [ TRef.unary (.of main_cst_85 : TRef sig ⟨S_, .f32⟩) main_call11.v0 id,
    TRef.unary main_call11.v0 main_call11.v1 (broadcastInDim S8 ![] bcast_S_S8),
    TRef.ternary (.of main_v266 : TRef sig ⟨S8, .i1⟩) (.of main_v271 : TRef sig ⟨S8, .f32⟩) main_call11.v1 main_call11.v2 select,
    nullary main_cst_86 (constant S_ .f32 0x00000000#32),
    binary main_v272 main_cst_86 main_v273 ((fun x v => Host.reduceAdd x v reducesTo_S8_S_d0 h_S_)),
    binary main_v182 main_v273 main_v274 addf,
    binary main_v183 main_v200 main_v275 addf,
    unary main_v274 main_v276 (broadcastInDim S1 ![] bcast_S_S1),
    unary main_v275 main_v277 (broadcastInDim S1 ![] bcast_S_S1),
    binary main_v276 main_v277 main_v278 ((fun a b => concatenate S2 0 [⟨S1, a⟩, ⟨S1, b⟩] concatenates_S1_S1_S2_d0)),
    nullary main_cst_87 (constant S_ .f32 0x3F800000#32),
    unary main_cst_87 main_v279 (broadcastInDim S2 ![] bcast_S_S2) ]

abbrev ops : List (HloOp τ sig (Elt F)) :=
  ops0 ++ (ops1 ++ (ops2 ++ (ops3 ++ (ops4 ++ (ops5 ++ ops6)))))

theorem part0_eq (d : Dev nD) : main_part0 (F := F) d = seq ops0 := rfl
theorem part1_eq (d : Dev nD) : main_part1 (F := F) d = seq ops1 := rfl
theorem part2_eq (d : Dev nD) : main_part2 (F := F) d = seq ops2 := rfl
theorem part3_eq (d : Dev nD) : main_part3 (F := F) d = seq ops3 := rfl
theorem part4_eq (d : Dev nD) : main_part4 (F := F) d = seq ops4 := rfl
theorem part5_eq (d : Dev nD) : main_part5 (F := F) d = seq ops5 := rfl
theorem part6_eq (d : Dev nD) : main_part6 (F := F) d = seq ops6 := rfl

theorem main_eq (d : Dev nD) : main (F := F) d = seq ops := by
  unfold main
  rw [part0_eq, part1_eq, part2_eq, part3_eq, part4_eq, part5_eq, part6_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

/-- A property of every operation of the seven windows is one of every operation of the line. -/
theorem forall_ops {P : HloOp τ sig (Elt F) → Prop} (h0 : ops0.Forall P) (h1 : ops1.Forall P) (h2 : ops2.Forall P)
    (h3 : ops3.Forall P) (h4 : ops4.Forall P) (h5 : ops5.Forall P) (h6 : ops6.Forall P) : ops.Forall P :=
  List.forall_append.mpr ⟨h0, List.forall_append.mpr ⟨h1, List.forall_append.mpr ⟨h2,
    List.forall_append.mpr ⟨h3, List.forall_append.mpr ⟨h4, List.forall_append.mpr ⟨h5, h6⟩⟩⟩⟩⟩⟩

theorem ops_sub : (ops : List (HloOp τ sig (Elt F))).Forall fun op => op.bufs ⊆ tcRefs τ sig := by
  refine forall_ops ?_ ?_ ?_ ?_ ?_ ?_ ?_ <;> simp only [List.Forall, unary_bufs_sub, binary_bufs_sub, nullary_bufs_sub, ternary_bufs_sub, reshape_bufs_sub, nary_bufs_sub, and_self]

theorem ops_fresh : ∀ op ∈ (ops : List (HloOp τ sig (Elt F))), op.fresh = ∅ :=
  List.forall_iff_forall_mem.mp (by refine forall_ops ?_ ?_ ?_ ?_ ?_ ?_ ?_ <;> (simp only [List.Forall]; repeat' constructor))

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) := by
  exact run_seq scopedRefs_eq scopedSems_eq defs main (fun _ => ops) main_eq (fun _ => ops_sub) m ρ (fun _ => ops_fresh)

end Cert.ReferenceIdeal.Hand

end
-- ==== Proof.RI.NegRef.lean ====
import proofs.«168589_j44040594653637_1_alg».proof.Proof.Spec
import proofs.«168589_j44040594653637_1_alg».proof.Proof.Gen.ReferenceIdeal
import Idealize.ShloMosaic.Lib.IdealHost

noncomputable section

namespace Cert.ReferenceIdeal.Hand

open Idealize.ShloMosaic
open Cert.Spec
open scoped BigOperators

theorem ofBits_two_f32 : Ideal.ofBits .f32 0x40000000#32 = ((2 : ℝ) : EReal) := by
  simp [Ideal.ofBits, Ideal.ieee, -EReal.coe_mul]; norm_num

theorem logistic_real (x : EReal) : ∃ r : ℝ, Ideal.logistic x = (r : EReal) := by
  induction x using EReal.rec with
  | bot => exact ⟨0, by rw [Ideal.logistic_bot]; rfl⟩
  | top => exact ⟨1, by rw [Ideal.logistic_top]; rfl⟩
  | coe r => exact ⟨_, Ideal.logistic_coe r⟩

theorem hostPowf_logistic_two (x : Ideal .f32) :
    FloatOps.hostPowf (FloatOps.logistic x) (FloatOps.ofBits .f32 0x40000000#32)
      = FloatOps.mulf (FloatOps.logistic x) (FloatOps.logistic x) := by
  obtain ⟨r, hr⟩ := logistic_real x
  show Ideal.pow (Ideal.logistic x) (Ideal.ofBits .f32 0x40000000#32) = Ideal.logistic x * Ideal.logistic x
  rw [hr, ofBits_two_f32, Ideal.pow_coe_coe, ← EReal.coe_mul]
  congr 1
  show r ^ (2 : ℝ) = r * r
  rw [Real.rpow_two, sq]

theorem hostLogistic_eq (x : Ideal .f32) :
    FloatOps.hostDivf (FloatOps.ofBits .f32 0x3F800000#32)
        (FloatOps.addf (FloatOps.ofBits .f32 0x3F800000#32) (FloatOps.hostUnary .exp (FloatOps.hostNegf x)))
      = FloatOps.logistic x := by
  show Ideal.div (Ideal.ofBits .f32 0x3F800000#32) (Ideal.ofBits .f32 0x3F800000#32 + Ideal.exp (-x)) = Ideal.logistic x
  rw [Ideal.ofBits_one_f32]; rfl

theorem uitofp_bit (b : BitVec 1) :
    FloatOps.uitofp (F := Ideal) .f32 b = FloatOps.sitofp (F := Ideal) .f32 (b.setWidth 32) := by
  show (((b.toNat : ℝ)) : EReal) = ((((b.setWidth 32).toInt : ℝ)) : EReal)
  have h : (b.setWidth 32).toInt = (b.toNat : Int) := by revert b; decide
  rw [h]; norm_cast

def refWElt (x g : Ideal .f32) : Ideal .f32 :=
  FloatOps.mulf
    (FloatOps.hostPowf
      (FloatOps.hostDivf (FloatOps.ofBits .f32 0x3F800000#32)
        (FloatOps.addf (FloatOps.ofBits .f32 0x3F800000#32) (FloatOps.hostUnary .exp (FloatOps.hostNegf x))))
      (FloatOps.ofBits .f32 0x40000000#32))
    (FloatOps.uitofp .f32 (FloatOps.cmpf .oeq g (FloatOps.ofBits .f32 0xBF800000#32)))

theorem refWElt_eq (x g : Ideal .f32) : refWElt x g = wElt x g := by
  unfold refWElt wElt maskElt
  rw [uitofp_bit, hostLogistic_eq, hostPowf_logistic_two]

def refSplusElt (x : Ideal .f32) : Ideal .f32 :=
  Scalar.select
    (FloatOps.cmpf .une (FloatOps.subf x (FloatOps.ofBits .f32 0x00000000#32)) (FloatOps.subf x (FloatOps.ofBits .f32 0x00000000#32)))
    (FloatOps.addf x (FloatOps.ofBits .f32 0x00000000#32))
    (FloatOps.addf (FloatOps.maximumf x (FloatOps.ofBits .f32 0x00000000#32))
      (FloatOps.hostUnary .log1p (FloatOps.hostUnary .exp (FloatOps.hostNegf
        (FloatOps.hostAbsf (FloatOps.subf x (FloatOps.ofBits .f32 0x00000000#32)))))))

theorem refSplusElt_eq (x : Ideal .f32) : refSplusElt x = splusElt x := by
  unfold refSplusElt splusElt
  have h0 : ∀ y : Ideal .f32, FloatOps.subf (FloatOps.ofBits .f32 0x00000000#32) y = FloatOps.hostNegf y := by
    intro y
    show Ideal.ofBits .f32 0x00000000#32 - y = -y
    rw [Ideal.ofBits_zero_f32, zero_sub]
  rw [h0]
  rfl

variable {S : Shape}

def refW (hb : S_.BroadcastsInDim S (![] : Fin 0 → Fin S.rank)) (x g : FVec Ideal S .f32) : FVec Ideal S .f32 :=
  mulf
    (Host.powf
      (Host.divf (broadcastInDim S ![] hb (constant S_ .f32 0x3F800000#32))
        (addf (broadcastInDim S ![] hb (constant S_ .f32 0x3F800000#32)) (Host.exp (Host.negf x))))
      (broadcastInDim S ![] hb (constant S_ .f32 0x40000000#32)))
    (uitofp .f32 (cmpf .oeq g (broadcastInDim S ![] hb (constant S_ .f32 0xBF800000#32))))

def refSplus (hb : S_.BroadcastsInDim S (![] : Fin 0 → Fin S.rank)) (x : FVec Ideal S .f32) : FVec Ideal S .f32 :=
  select
    (cmpf .une (subf x (broadcastInDim S ![] hb (constant S_ .f32 0x00000000#32)))
      (subf x (broadcastInDim S ![] hb (constant S_ .f32 0x00000000#32))))
    (addf x (broadcastInDim S ![] hb (constant S_ .f32 0x00000000#32)))
    (addf (maximumf x (broadcastInDim S ![] hb (constant S_ .f32 0x00000000#32)))
      (Host.log1p (Host.exp (Host.negf (Host.absf (subf x (broadcastInDim S ![] hb (constant S_ .f32 0x00000000#32))))))))

theorem reduce_total {axes : List (Fin S.rank)} (hr : S.ReducesTo axes S_) (hu : 0 < S_.numel) (f : FVec Ideal S .f32) :
    Host.reduceAdd f (constant S_ .f32 0x00000000#32) hr hu = fun _ => ∑ i : S.Idx, f i := by
  funext j
  rw [ValueIdx.hostReduceAdd_apply, Ideal.hostReduceAdd_total hr (fun b => b.elim0)]
  show Ideal.ofBits .f32 0x00000000#32 + _ = _
  rw [Ideal.ofBits_zero_f32, zero_add]

theorem refNeg_eq {axes : List (Fin S.rank)} (hb : S_.BroadcastsInDim S (![] : Fin 0 → Fin S.rank)) (hr : S.ReducesTo axes S_)
    (hu : 0 < S_.numel) (x g : FVec Ideal S .f32) :
    Host.divf (Host.reduceAdd (mulf (refSplus hb x) (refW hb x g)) (constant S_ .f32 0x00000000#32) hr hu)
        (Host.reduceAdd (refW hb x g) (constant S_ .f32 0x00000000#32) hr hu)
      = negLevel x g := by
  rw [reduce_total, reduce_total]
  unfold negLevel quot negNum negDen nwElt
  congr 1
  · funext _; exact Finset.sum_congr rfl fun i _ =>
      congrArg₂ FloatOps.mulf (refSplusElt_eq (x i)) (refWElt_eq (x i) (g i))
  · funext _; exact Finset.sum_congr rfl fun i _ => refWElt_eq (x i) (g i)

end Cert.ReferenceIdeal.Hand

end
-- ==== Proof.RI.Value.lean ====
import proofs.«168589_j44040594653637_1_alg».proof.Proof.RI.Run
import proofs.«168589_j44040594653637_1_alg».proof.Proof.RI.NegRef
import proofs.«168589_j44040594653637_1_alg».proof.Proof.Spec
import Idealize.ShloMosaic.Lib.Pipeline.Frame

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen
open Cert.Spec

section
variable {F : FTy → Type} [FloatOps F]

/-- The operation writes none of the first nine buffers (the arguments). -/
def WritesPast (op : HloOp τ sig (Elt F)) : Prop :=
  ∀ r : Ref sig .tc, r.idx.val < 9 → Proc.devRef .tc r ∉ op.writes

theorem writesPast_of_singleton {op : HloOp τ sig (Elt F)} (y : Ref sig .tc) (h : op.writes = {Proc.devRef .tc y})
    (hy : 9 ≤ y.idx.val) : WritesPast op := fun r hr hb => by
  rw [h, Finset.mem_singleton] at hb
  have := Proc.devRef_injective _ hb
  subst this
  omega

theorem ops_past : ∀ op ∈ (ops : List (HloOp τ sig (Elt F))), WritesPast op :=
  List.forall_iff_forall_mem.mp (by
    refine forall_ops ?_ ?_ ?_ ?_ ?_ ?_ ?_ <;> simp only [List.Forall] <;> and_intros <;>
      exact writesPast_of_singleton _ rfl (by decide))

theorem after_of_past (l : List (HloOp τ sig (Elt F))) (hl : ∀ op ∈ l, WritesPast op) (r : Ref sig .tc) (hr : r.idx.val < 9)
    (V : Valuation τ sig (Elt F)) : after l V (Proc.devRef .tc r) = V (Proc.devRef .tc r) :=
  after_of_forall_not_mem _ V fun op hop => hl op hop r hr

theorem after_of_arg (r : Ref sig .tc) (hr : r.idx.val < 9) (V : Valuation τ sig (Elt F)) :
    after (ops (F := F)) V (Proc.devRef .tc r) = V (Proc.devRef .tc r) :=
  after_of_past _ ops_past r hr V

abbrev Nine (P : Ref sig .tc → Prop) : Prop :=
  P main_arg0 ∧ P main_arg1 ∧ P main_arg2 ∧ P main_arg3 ∧ P main_arg4 ∧ P main_arg5 ∧ P main_arg6 ∧ P main_arg7 ∧ P main_arg8

/-- The run's post read at the nine arguments, which no operation writes: the launch memory. -/
theorem kept (m : (ℓ : Loc nD τ sig) → Buf (Elt F) ℓ) {mem : (ℓ : Loc nD τ sig) → Buf (Elt F) ℓ} (d : Dev nD)
    (h : ∀ b : Ref sig .tc, mem ((d.tc : Thread nD τ).loc b) = after (ops (F := F)) (launchContents m d) (Proc.devRef .tc b)) :
    Nine fun r => mem ((d.tc : Thread nD τ).loc r) = m ((d.tc : Thread nD τ).loc r) :=
  have k (r : Ref sig .tc) (hr : r.idx.val < 9) : mem ((d.tc : Thread nD τ).loc r) = m ((d.tc : Thread nD τ).loc r) :=
    (h r).trans (after_of_arg r hr _)
  ⟨k main_arg0 (by decide), k main_arg1 (by decide), k main_arg2 (by decide), k main_arg3 (by decide), k main_arg4 (by decide),
    k main_arg5 (by decide), k main_arg6 (by decide), k main_arg7 (by decide), k main_arg8 (by decide)⟩
end

section
variable {F : FTy → Type} [FloatOps F]

abbrev lvl0 : List (HloOp τ sig (Elt F)) := ops0 ++ (ops1 ++ ops2.take 3)

abbrev lvl1 : List (HloOp τ sig (Elt F)) := ops2.drop 3 ++ (ops3 ++ ops4.take 4)

abbrev lvl2 : List (HloOp τ sig (Elt F)) := ops4.drop 4 ++ (ops5 ++ ops6.take 7)

abbrev fin : List (HloOp τ sig (Elt F)) := ops6.drop 7

theorem ops_split : (ops : List (HloOp τ sig (Elt F))) = lvl0 ++ (lvl1 ++ (lvl2 ++ fin)) := rfl

theorem after_ops (V : Valuation τ sig (Elt F)) :
    after (ops (F := F)) V = after fin (after lvl2 (after lvl1 (after lvl0 V))) := by
  rw [ops_split, after_append, after_append, after_append]

theorem lvl0_past : ∀ op ∈ (lvl0 : List (HloOp τ sig (Elt F))), WritesPast op := fun op h =>
  ops_past op (by rw [ops_split]; exact List.mem_append_left _ h)
theorem lvl1_past : ∀ op ∈ (lvl1 : List (HloOp τ sig (Elt F))), WritesPast op := fun op h =>
  ops_past op (by rw [ops_split]; exact List.mem_append_right _ (List.mem_append_left _ h))

end

section
variable {α : Type}

def join5 (t : Shape) (a : Fin t.rank) (s : Shape) (h : Shape.Concatenates [s, s, s, s, s] t a) (x0 x1 x2 x3 x4 : s.Idx → α) :
    t.Idx → α :=
  concatenate t a [⟨s, x0⟩, ⟨s, x1⟩, ⟨s, x2⟩, ⟨s, x3⟩, ⟨s, x4⟩] h

theorem concatenate_five (t : Shape) (a : Fin t.rank) (s : Shape) (h : Shape.Concatenates [s, s, s, s, s] t a)
    (x0 x1 x2 x3 x4 : s.Idx → α) :
    concatenate t a [⟨s, x0⟩, ⟨s, x1⟩, ⟨s, x2⟩, ⟨s, x3⟩, ⟨s, x4⟩] h = join5 t a s h x0 x1 x2 x3 x4 := rfl
end

macro "line_results" : tactic =>
  `(tactic| (simp (disch := decide) only [after_cons, after_nil, concatenate_five, Matrix.cons_val,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

section
variable (W : Valuation τ sig (Elt Ideal))

set_option maxHeartbeats 4000000 in
theorem lvl0_res : after (lvl0 (F := Ideal)) W (Proc.devRef .tc main_v91)
      = addf (F := Ideal) (s := S_) (φ := .f32) (constant S_ .f32 0x00000000#32) (negLevel (S := S8x2x96x96x96) (W (Proc.devRef .tc main_arg0)) (W (Proc.devRef .tc main_arg3)))
    ∧ after (lvl0 (F := Ideal)) W (Proc.devRef .tc main_v90)
      = addf (F := Ideal) (s := S_) (φ := .f32) (constant S_ .f32 0x00000000#32) (posLevel0 (F := Ideal) (W (Proc.devRef .tc main_arg0)) (W (Proc.devRef .tc main_arg6))) := by
  simp only [lvl0, ops0, ops1, ops2, List.take_succ_cons, List.take_zero, List.cons_append, List.nil_append]
  constructor
  · after_results_simp
    exact congrArg (addf (F := Ideal) (s := S_) (φ := .f32) (constant S_ .f32 0x00000000#32))
      (refNeg_eq bcast_S_S8x2x96x96x96 reducesTo_S8x2x96x96x96_S_d0_1_2_3_4 h_S_ _ _)
  · line_results
    simp only [join5, TRef.ofBuf, TRef.toBuf, cast_eq]
    rfl

set_option maxHeartbeats 4000000 in
theorem lvl1_res : after (lvl1 (F := Ideal)) W (Proc.devRef .tc main_v183)
      = addf (F := Ideal) (s := S_) (φ := .f32) (W (Proc.devRef .tc main_v91)) (negLevel (S := S8x2x48x48x48) (W (Proc.devRef .tc main_arg1)) (W (Proc.devRef .tc main_arg4)))
    ∧ after (lvl1 (F := Ideal)) W (Proc.devRef .tc main_v182)
      = addf (F := Ideal) (s := S_) (φ := .f32) (W (Proc.devRef .tc main_v90)) (posLevel1 (F := Ideal) (W (Proc.devRef .tc main_arg1)) (W (Proc.devRef .tc main_arg7))) := by
  simp only [lvl1, ops2, ops3, ops4, List.drop_succ_cons, List.drop_zero, List.take_succ_cons, List.take_zero, List.cons_append, List.nil_append]
  constructor
  · after_results_simp
    exact congrArg (addf (F := Ideal) (s := S_) (φ := .f32) (W (Proc.devRef .tc main_v91)))
      (refNeg_eq bcast_S_S8x2x48x48x48 reducesTo_S8x2x48x48x48_S_d0_1_2_3_4 h_S_ _ _)
  · line_results
    simp only [join5, TRef.ofBuf, TRef.toBuf, cast_eq]
    rfl

set_option maxHeartbeats 4000000 in
theorem lvl2_res : after (lvl2 (F := Ideal)) W (Proc.devRef .tc main_v275)
      = addf (F := Ideal) (s := S_) (φ := .f32) (W (Proc.devRef .tc main_v183)) (negLevel (S := S8x2x24x24x24) (W (Proc.devRef .tc main_arg2)) (W (Proc.devRef .tc main_arg5)))
    ∧ after (lvl2 (F := Ideal)) W (Proc.devRef .tc main_v274)
      = addf (F := Ideal) (s := S_) (φ := .f32) (W (Proc.devRef .tc main_v182)) (posLevel2 (F := Ideal) (W (Proc.devRef .tc main_arg2)) (W (Proc.devRef .tc main_arg8))) := by
  simp only [lvl2, ops4, ops5, ops6, List.drop_succ_cons, List.drop_zero, List.take_succ_cons, List.take_zero, List.cons_append, List.nil_append]
  constructor
  · after_results_simp
    exact congrArg (addf (F := Ideal) (s := S_) (φ := .f32) (W (Proc.devRef .tc main_v183)))
      (refNeg_eq bcast_S_S8x2x24x24x24 reducesTo_S8x2x24x24x24_S_d0_1_2_3_4 h_S_ _ _)
  · line_results
    simp only [join5, TRef.ofBuf, TRef.toBuf, cast_eq]
    rfl

theorem fin_v278 : after (fin (F := Ideal)) W (Proc.devRef .tc main_v278)
    = concatenate (α := Ideal .f32) S2 0 [⟨S1, broadcastInDim S1 ![] bcast_S_S1 (W (Proc.devRef .tc main_v274))⟩,
        ⟨S1, broadcastInDim S1 ![] bcast_S_S1 (W (Proc.devRef .tc main_v275))⟩] concatenates_S1_S1_S2_d0 := by
  simp only [fin, ops6, List.drop_succ_cons, List.drop_zero]
  after_results

theorem fin_v279 : after (fin (F := Ideal)) W (Proc.devRef .tc main_v279)
    = broadcastInDim (α := Ideal .f32) S2 ![] bcast_S_S2 (constant (F := Ideal) S_ .f32 0x3F800000#32) := by
  simp only [fin, ops6, List.drop_succ_cons, List.drop_zero]
  after_results_simp

end

variable (m : (ℓ : Loc nD τ sig) → Buf (Elt Ideal) ℓ)

abbrev a (d : Dev nD) (b : Ref sig .tc) : Buf (Elt Ideal) ((d.tc : Thread nD τ).loc b) := m ((d.tc : Thread nD τ).loc b)

theorem after_v278 (d : Dev nD) : after (ops (F := Ideal)) (launchContents m d) (Proc.devRef .tc main_v278) =
    losses (posLevel0 (a m d main_arg0) (a m d main_arg6)) (posLevel1 (a m d main_arg1) (a m d main_arg7)) (posLevel2 (a m d main_arg2) (a m d main_arg8))
      (negLevel (S := Cert.KernelIdeal.S8x2x96x96x96) (a m d main_arg0) (a m d main_arg3))
      (negLevel (S := Cert.KernelIdeal.S8x2x48x48x48) (a m d main_arg1) (a m d main_arg4))
      (negLevel (S := Cert.KernelIdeal.S8x2x24x24x24) (a m d main_arg2) (a m d main_arg5)) := by
  rw [after_ops, fin_v278, (lvl2_res _).2, (lvl2_res _).1, (lvl1_res _).2, (lvl1_res _).1, (lvl0_res _).2, (lvl0_res _).1]
  simp (disch := decide) only [after_of_past lvl1 lvl1_past, after_of_past lvl0 lvl0_past]
  rfl
theorem after_v279 (d : Dev nD) : after (ops (F := Ideal)) (launchContents m d) (Proc.devRef .tc main_v279) = counts := by
  rw [after_ops, fin_v279]
  rfl

end Cert.ReferenceIdeal.Hand

end
-- ==== Proof.lean ====
import proofs.«168589_j44040594653637_1_alg».proof.Defs
import proofs.«168589_j44040594653637_1_alg».proof.Proof.Gen.Kernel
import proofs.«168589_j44040594653637_1_alg».proof.Proof.Gen.KernelIdeal
import proofs.«168589_j44040594653637_1_alg».proof.Proof.Gen.ReferenceIdeal
import proofs.«168589_j44040594653637_1_alg».proof.Proof.Gen.Pre_finite_inputs
import proofs.«168589_j44040594653637_1_alg».proof.Proof.K.Frame
import proofs.«168589_j44040594653637_1_alg».proof.Proof.KI.Frame
import proofs.«168589_j44040594653637_1_alg».proof.Proof.KI.Value
import proofs.«168589_j44040594653637_1_alg».proof.Proof.RI.Value

noncomputable section

namespace Cert.Proof

open Idealize.ShloMosaic Idealize.ShloMosaic.TcCoe Idealize.SL.Sem

theorem frame_k : Cert.frame_Kernel := fun m ρ _ =>
  (θ_run Cert.Kernel.defs _ _).mono (fun r h c => Cert.Kernel.Neg.kept m ρ c (h c)) (Cert.Kernel.Neg.run_all m ρ)

theorem frame_ki : Cert.frame_KernelIdeal := fun m ρ _ =>
  (θ_run Cert.KernelIdeal.defs _ _).mono (fun r h c => Cert.KernelIdeal.Neg.kept m ρ c (h c)) (Cert.KernelIdeal.Neg.run_all m ρ)

theorem frame_ri : Cert.frame_ReferenceIdeal := fun m ρ _ =>
  (θ_run Cert.ReferenceIdeal.defs _ _).mono (fun r h c => Cert.ReferenceIdeal.Hand.kept m c (h c)) (Cert.ReferenceIdeal.Hand.run (F := Ideal) m ρ)

theorem preserves : Cert.preserves_Kernel_KernelIdeal := trivial

/-- Both idealized programs end with the specification's two results of the (agreeing) argument arrays. -/
theorem algebraic : Cert.algebraic_KernelIdeal_ReferenceIdeal := by
  intro m ρ m' ρ' _ hagree
  refine ⟨fun c => Cert.Spec.losses
      (Cert.Spec.posLevel0 (Cert.KernelIdeal.Neg.a m c Cert.KernelIdeal.main_arg0) (Cert.KernelIdeal.Neg.a m c Cert.KernelIdeal.main_arg6))
      (Cert.Spec.posLevel1 (Cert.KernelIdeal.Neg.a m c Cert.KernelIdeal.main_arg1) (Cert.KernelIdeal.Neg.a m c Cert.KernelIdeal.main_arg7))
      (Cert.Spec.posLevel2 (Cert.KernelIdeal.Neg.a m c Cert.KernelIdeal.main_arg2) (Cert.KernelIdeal.Neg.a m c Cert.KernelIdeal.main_arg8))
      (Cert.Spec.negLevel (S := Cert.KernelIdeal.S8x2x96x96x96) (Cert.KernelIdeal.Neg.a m c Cert.KernelIdeal.main_arg0) (Cert.KernelIdeal.Neg.a m c Cert.KernelIdeal.main_arg3))
      (Cert.Spec.negLevel (S := Cert.KernelIdeal.S8x2x48x48x48) (Cert.KernelIdeal.Neg.a m c Cert.KernelIdeal.main_arg1) (Cert.KernelIdeal.Neg.a m c Cert.KernelIdeal.main_arg4))
      (Cert.Spec.negLevel (S := Cert.KernelIdeal.S8x2x24x24x24) (Cert.KernelIdeal.Neg.a m c Cert.KernelIdeal.main_arg2) (Cert.KernelIdeal.Neg.a m c Cert.KernelIdeal.main_arg5)),
    fun _ => Cert.Spec.counts,
    (θ_run Cert.KernelIdeal.defs _ _).mono (fun r h c =>
      ⟨(h c _ (Cert.KernelIdeal.Neg.mem_uc Cert.KernelIdeal.main_v245 (by decide))).trans (Cert.KernelIdeal.Neg.W25_v245 m ρ c),
       (h c _ (Cert.KernelIdeal.Neg.mem_uc Cert.KernelIdeal.main_v246 (by decide))).trans (Cert.KernelIdeal.Neg.W25_v246 m ρ c),
       Cert.KernelIdeal.Neg.kept m ρ c (h c)⟩) (Cert.KernelIdeal.Neg.run_all (F := Ideal) m ρ),
    (θ_run Cert.ReferenceIdeal.defs _ _).mono (fun r h c => ?_) (Cert.ReferenceIdeal.Hand.run (F := Ideal) m' ρ')⟩
  obtain ⟨h0, h1, h2, h3, h4, h5, h6, h7, h8⟩ := hagree c
  refine ⟨(h c Cert.ReferenceIdeal.main_v278).trans ((Cert.ReferenceIdeal.Hand.after_v278 m' c).trans ?_),
    (h c Cert.ReferenceIdeal.main_v279).trans (Cert.ReferenceIdeal.Hand.after_v279 m' c), Cert.ReferenceIdeal.Hand.kept m' c (h c)⟩
  dsimp only [Cert.ReferenceIdeal.Hand.a, Cert.KernelIdeal.Neg.a]
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
